-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v22_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S320000x128 : Shape := ⟨2, ![320000, 128]⟩
abbrev S320000 : Shape := ⟨1, ![320000]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S1 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S20000x128 .f32) (main_arg1 : FVec F S320000x128 .f32) (main_arg2 : IVec S320000 32) (main_arg3 : IVec S320000 32) (main_arg4 : FVec F S384x128 .f32) (main_arg5 : FVec F S128 .f32) (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128 .f32) (main_arg13 : FVec F S128 .f32) (main_arg14 : FVec F S128x128 .f32) (main_arg15 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S20000x128 : Shape := ⟨2, ![20000, 128]⟩
abbrev S320000x128 : Shape := ⟨2, ![320000, 128]⟩
abbrev S320000 : Shape := ⟨1, ![320000]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S320000x1 : Shape := ⟨2, ![320000, 1]⟩
abbrev S1x128 : Shape := ⟨2, ![1, 128]⟩
abbrev S1x1 : Shape := ⟨2, ![1, 1]⟩
abbrev S4000x128 : Shape := ⟨2, ![4000, 128]⟩
abbrev S4000 : Shape := ⟨1, ![4000]⟩
abbrev S4000x1 : Shape := ⟨2, ![4000, 1]⟩

abbrev nBuf : Space → Nat
  | .hbm => 52
  | .vmem => 40
  | .smem => 0
  | _ => 0

abbrev bufTy : (tb : Table) → Fin (tcTables nBuf tb) → BufTy
  | .hbm, ⟨0, _⟩ => ⟨S20000x128, .f32⟩
  | .hbm, ⟨1, _⟩ => ⟨S320000x128, .f32⟩
  | .hbm, ⟨2, _⟩ => ⟨S320000, .i32⟩
  | .hbm, ⟨3, _⟩ => ⟨S320000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x128, .f32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x128, .f32⟩
  | .hbm, ⟨34, _⟩ => ⟨S1x128, .f32⟩
  | .hbm, ⟨35, _⟩ => ⟨S1x128, .f32⟩
  | .hbm, ⟨36, _⟩ => ⟨S1x1, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S320000x128, .f32⟩
  | .hbm, ⟨43, _⟩ => ⟨S320000x128, .f32⟩
  | .hbm, ⟨44, _⟩ => ⟨S_, .f32⟩
  | .hbm, ⟨45, _⟩ => ⟨S20000x128, .f32⟩
  | .hbm, ⟨46, _⟩ => ⟨S320000x1, .i32⟩
  | .hbm, ⟨47, _⟩ => ⟨S20000x128, .f32⟩
  | .hbm, ⟨48, _⟩ => ⟨S20000x128, .f32⟩
  | .hbm, ⟨49, _⟩ => ⟨S1x128, .f32⟩
  | .hbm, ⟨50, _⟩ => ⟨S1x128, .f32⟩
  | .hbm, ⟨51, _⟩ => ⟨S20000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S384x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev main_v27 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg8_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem6_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem8_1 : DmaSem sig := 37

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v33 : BitVec 1 := Scalar.cmpi .eq arg0 c4_i32
  let v34 : BitVec 32 := Scalar.extui v33
  let c0_i32_21 : BitVec 32 := 0#32
  let v35 : BitVec 1 := Scalar.cmpi .ne v34 c0_i32_21
  v35

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  shapeCasts_S128_S1x128 : S128.ShapeCasts S1x128
  shapeCasts_S1_S1x1 : S1.ShapeCasts S1x1
  shapeCasts_S128x1_S1x128 : S128x1.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S384x128_S128x128_0_0 : ∀ a, (![0, 0] : Fin 2 → Nat) a + S128x128.size a ≤ S384x128.size a
  h_S128x128 : 0 < S128x128.numel
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S4000x128 : S1x128.Broadcasts S4000x128
  inb_S128x128_S128x128_0_0 : ∀ a, (![0, 0] : Fin 2 → Nat) a + S128x128.size a ≤ S128x128.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S4000x128_S4000 : S4000x128.Reduces [1] S4000
  shapeCasts_S4000_S4000x1 : S4000.ShapeCasts S4000x1
  broadcasts_S1x1_S4000x1 : S1x1.Broadcasts S4000x1
  broadcasts_S4000x1_S4000x128 : S4000x1.Broadcasts S4000x128
  bcast_S_S20000x128 : S_.BroadcastsInDim S20000x128 (![] : Fin 0 → Fin S20000x128.rank)
  reduces_S4000x128_S128 : S4000x128.Reduces [0] S128
  gather_S20000x128_S320000x1_S320000x128_1_0_n_n_0_1_1128_wf : GatherDims.WF S20000x128 S320000x1 S320000x128 [1] [0] [] [0] [] 1 ![1, 128]
  dot_S4000x128_S128x128_S4000x128_1_0_0_1_n_n_wf : DotDims.WF S4000x128 S128x128 S4000x128 [1] [0] [0] [1] [] []
  scatter_S20000x128_S320000x1_S320000x128_1_0_0_1_wf : ScatterDims.WF S20000x128 S320000x1 S320000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S320000x128.size a
  hwx0_0 : ∀ i : grid0.Coords, EltTy.bits .f32 = 32 ∨ (Rect.block (s := S320000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S320000x128.size a
  hwx0_1 : ∀ i : grid0.Coords, EltTy.bits .f32 = 32 ∨ (Rect.block (s := S320000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S320000x128.size a
  hwx0_2 : ∀ i : grid0.Coords, EltTy.bits .f32 = 32 ∨ (Rect.block (s := S320000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S320000x128.size a
  hwx0_9 : ∀ i : grid0.Coords, EltTy.bits .f32 = 32 ∨ (Rect.block (s := S320000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S320000x128.size a
  hwx0_10 : ∀ i : grid0.Coords, EltTy.bits .f32 = 32 ∨ (Rect.block (s := S320000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S20000x128.size a
  hwx1_4 : ∀ i : grid1.Coords, EltTy.bits .f32 = 32 ∨ (Rect.block (s := S20000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S20000x128.size a
  hwx2_1 : ∀ i : grid2.Coords, EltTy.bits .f32 = 32 ∨ (Rect.block (s := S20000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S20000x128.size a
  hwx2_8 : ∀ i : grid2.Coords, EltTy.bits .f32 = 32 ∨ (Rect.block (s := S20000x128) S4000x128.size (cc2_transform_8 i) (hinb2_8 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v22_1) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26_0) S4000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v26_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26_1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26_2) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v27) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S20000x128 : Shape := ⟨2, ![20000, 128]⟩
abbrev S320000x128 : Shape := ⟨2, ![320000, 128]⟩
abbrev S320000 : Shape := ⟨1, ![320000]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S320000x1 : Shape := ⟨2, ![320000, 1]⟩
abbrev S320000x384 : Shape := ⟨2, ![320000, 384]⟩
abbrev S1x128 : Shape := ⟨2, ![1, 128]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S20000x128, .f32⟩
  | 1 => ⟨S320000x128, .f32⟩
  | 2 => ⟨S320000, .i32⟩
  | 3 => ⟨S320000, .i32⟩
  | 4 => ⟨S384x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x128, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x128, .f32⟩
  | 34 => ⟨S320000x384, .f32⟩
  | 35 => ⟨S320000x128, .f32⟩
  | 36 => ⟨S1x128, .f32⟩
  | 37 => ⟨S320000x128, .f32⟩
  | 38 => ⟨S320000x128, .f32⟩
  | 39 => ⟨S_, .f32⟩
  | 40 => ⟨S320000x128, .f32⟩
  | 41 => ⟨S320000x128, .f32⟩
  | 42 => ⟨S320000x128, .f32⟩
  | 43 => ⟨S1x128, .f32⟩
  | 44 => ⟨S320000x128, .f32⟩
  | 45 => ⟨S320000x128, .f32⟩
  | 46 => ⟨S320000x128, .f32⟩
  | 47 => ⟨S320000x128, .f32⟩
  | 48 => ⟨S_, .f32⟩
  | 49 => ⟨S320000x128, .f32⟩
  | 50 => ⟨S320000x128, .f32⟩
  | 51 => ⟨S_, .f32⟩
  | 52 => ⟨S320000x128, .f32⟩
  | 53 => ⟨S320000x128, .f32⟩
  | 54 => ⟨S320000x128, .f32⟩
  | 55 => ⟨S320000x128, .f32⟩
  | 56 => ⟨S320000x1, .f32⟩
  | 57 => ⟨S1x1, .f32⟩
  | 58 => ⟨S320000x1, .f32⟩
  | 59 => ⟨S320000x1, .f32⟩
  | 60 => ⟨S320000x1, .f32⟩
  | 61 => ⟨S320000x1, .f32⟩
  | 62 => ⟨S_, .f32⟩
  | 63 => ⟨S320000x1, .f32⟩
  | 64 => ⟨S320000x1, .f32⟩
  | 65 => ⟨S_, .f32⟩
  | 66 => ⟨S320000x1, .f32⟩
  | 67 => ⟨S320000x1, .f32⟩
  | 68 => ⟨S320000x128, .f32⟩
  | 69 => ⟨S320000x128, .f32⟩
  | 70 => ⟨S_, .f32⟩
  | 71 => ⟨S20000x128, .f32⟩
  | 72 => ⟨S320000x1, .i32⟩
  | 73 => ⟨S20000x128, .f32⟩
  | 74 => ⟨S20000x128, .f32⟩
  | 75 => ⟨S20000x128, .f32⟩
  | 76 => ⟨S1x128, .f32⟩
  | 77 => ⟨S20000x128, .f32⟩
  | 78 => ⟨S20000x128, .f32⟩
  | 79 => ⟨S_, .f32⟩
  | 80 => ⟨S20000x128, .f32⟩
  | 81 => ⟨S20000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S20000x128, .f32⟩
  | 95 => ⟨S20000x128, .f32⟩
  | 96 => ⟨S20000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S20000x128, .f32⟩
  | 112 => ⟨S20000x128, .f32⟩
  | 113 => ⟨S_, .f32⟩
  | 114 => ⟨S128, .f32⟩
  | 115 => ⟨S128, .f32⟩
  | 116 => ⟨S128, .f32⟩
  | 117 => ⟨S1x128, .f32⟩
  | 118 => ⟨S20000x128, .f32⟩
  | 119 => ⟨S20000x128, .f32⟩
  | 120 => ⟨S1x128, .f32⟩
  | 121 => ⟨S20000x128, .f32⟩
  | 122 => ⟨S20000x128, .f32⟩
  | 123 => ⟨S1x128, .f32⟩
  | 124 => ⟨S20000x128, .f32⟩
  | 125 => ⟨S20000x128, .f32⟩
  | 126 => ⟨S20000x128, .f32⟩
  | 127 => ⟨S1x128, .f32⟩
  | _ => ⟨S20000x128, .f32⟩

abbrev hbmTy0_1 (i : Nat) : BufTy := match i % 128 with
  | 0 => ⟨S20000x128, .f32⟩
  | 1 => ⟨S20000x128, .f32⟩
  | 2 => ⟨S20000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst : Ref sig .tc := ⟨.hbm, 62, rfl⟩
abbrev main_v32 : Ref sig .tc := ⟨.hbm, 63, rfl⟩
abbrev main_v33 : Ref sig .tc := ⟨.hbm, 64, rfl⟩
abbrev main_cst_3 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_4 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call2_cst : Ref sig .tc := ⟨.hbm, 79, rfl⟩
abbrev main_call2_v0 : Ref sig .tc := ⟨.hbm, 80, rfl⟩
abbrev main_v46 : Ref sig .tc := ⟨.hbm, 81, rfl⟩
abbrev main_cst_5 : Ref sig .tc := ⟨.hbm, 82, rfl⟩
abbrev main_v47 : Ref sig .tc := ⟨.hbm, 83, rfl⟩
abbrev main_cst_6 : Ref sig .tc := ⟨.hbm, 84, rfl⟩
abbrev main_v48 : Ref sig .tc := ⟨.hbm, 85, rfl⟩
abbrev main_v49 : Ref sig .tc := ⟨.hbm, 86, rfl⟩
abbrev main_c_7 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_cst_3 : Ref sig .tc := ⟨.hbm, 104, rfl⟩
abbrev main_call3_v12 : Ref sig .tc := ⟨.hbm, 105, rfl⟩
abbrev main_call3_cst_4 : Ref sig .tc := ⟨.hbm, 106, rfl⟩
abbrev main_call3_call0_v0 : Ref sig .tc := ⟨.hbm, 107, rfl⟩
abbrev main_call3_call0_v1 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_cst_8 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x128_S320000x384_d1 : Shape.Concatenates [S320000x128, S320000x128, S320000x128] S320000x384 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S_S320000x1 : S_.BroadcastsInDim S320000x1 (![] : Fin 0 → Fin S320000x1.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  reducesTo_S20000x128_S128_d0 : S20000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S20000x128_S320000x1_S320000x128_1_0_n_n_0_1_1128_wf : GatherDims.WF S20000x128 S320000x1 S320000x128 [1] [0] [] [0] [] 1 ![1, 128]
  dot_S320000x384_S384x128_S320000x128_1_0_0_1_n_n_wf : DotDims.WF S320000x384 S384x128 S320000x128 [1] [0] [0] [1] [] []
  dot_S320000x128_S128x128_S320000x128_1_0_0_1_n_n_wf : DotDims.WF S320000x128 S128x128 S320000x128 [1] [0] [0] [1] [] []
  dot_S320000x128_S128x1_S320000x1_1_0_0_1_n_n_wf : DotDims.WF S320000x128 S128x1 S320000x1 [1] [0] [0] [1] [] []
  scatter_S20000x128_S320000x1_S320000x128_1_0_0_1_wf : ScatterDims.WF S20000x128 S320000x1 S320000x128 [1] [0] [0] 1
  dot_S20000x128_S128x128_S20000x128_1_0_0_1_n_n_wf : DotDims.WF S20000x128 S128x128 S20000x128 [1] [0] [0] [1] [] []

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x384_S384x128_S320000x128_1_0_0_1_n_n : DotDims S320000x384 S384x128 S320000x128 where
  lhsContracting := [1]
  rhsContracting := [0]
  lhsNonContracting := [0]
  rhsNonContracting := [1]
  lhsBatch := []
  rhsBatch := []
  wf := dot_S320000x384_S384x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KR0.lean ====
import proofs.«115762_j58188216926998_1_alg».proof.Proof.Gen.Kernel.Launch
import proofs.«115762_j58188216926998_1_alg».proof.Proof.Gen.Kernel.Skeleton
import proofs.«115762_j58188216926998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x128 := Rect.unit (s := S4000x128) ![0, 0] S4000x128.size inb_S4000x128_S4000x128_0_0
abbrev r0_1 : Rect S384x128 := Rect.unit (s := S384x128) ![0, 0] S128x128.size inb_S384x128_S128x128_0_0
abbrev r0_2 : Rect S384x128 := Rect.unit (s := S384x128) ![128, 0] S128x128.size inb_S384x128_S128x128_128_0
abbrev r0_3 : Rect S384x128 := Rect.unit (s := S384x128) ![256, 0] S128x128.size inb_S384x128_S128x128_256_0
abbrev r0_4 : Rect S1x128 := Rect.unit (s := S1x128) ![0, 0] S1x128.size inb_S1x128_S1x128_0_0
abbrev r0_5 : Rect S128x128 := Rect.unit (s := S128x128) ![0, 0] S128x128.size inb_S128x128_S128x128_0_0
abbrev r0_6 : Rect S1x1 := Rect.unit (s := S1x1) ![0, 0] S1x1.size inb_S1x1_S1x1_0_0

-- the new edge state: the edge input plus the message m = silu(relu(x_src·W1a + x_dst·W1b + d·W1c + b1)·W2 + b2), on one block of rows
def out0_9 (x0 : Vec F S4000x128 .f32) (x1 : Vec F S4000x128 .f32) (x2 : Vec F S4000x128 .f32) (x3 : Vec F S384x128 .f32) (x4 : Vec F S1x128 .f32) (x5 : Vec F S128x128 .f32) (x6 : Vec F S1x128 .f32) (x7 : Vec F S1x128 .f32) (x8 : Vec F S1x1 .f32) : Vec F S4000x128 .f32 :=
  View.canon [⟨r0_0, k0_pay3 (View.ld x0 r0_0) (View.ld x1 r0_0) (View.ld x2 r0_0) (View.ld x3 r0_1) (View.ld x3 r0_2) (View.ld x3 r0_3) (View.ld x4 r0_4) (View.ld x5 r0_5) (View.ld x6 r0_4)⟩]

-- the gated message: each row of m scaled by the logistic of its inner product with the gate weights plus the gate bias
def out0_10 (x0 : Vec F S4000x128 .f32) (x1 : Vec F S4000x128 .f32) (x2 : Vec F S4000x128 .f32) (x3 : Vec F S384x128 .f32) (x4 : Vec F S1x128 .f32) (x5 : Vec F S128x128 .f32) (x6 : Vec F S1x128 .f32) (x7 : Vec F S1x128 .f32) (x8 : Vec F S1x1 .f32) : Vec F S4000x128 .f32 :=
  View.canon [⟨r0_0, k0_pay1 (k0_pay2 (View.ld x0 r0_0) (View.ld x1 r0_0) (View.ld x2 r0_0) (View.ld x3 r0_1) (View.ld x3 r0_2) (View.ld x3 r0_3) (View.ld x4 r0_4) (View.ld x5 r0_5) (View.ld x6 r0_4)) (View.ld x7 r0_4) (View.ld x8 r0_6)⟩]

theorem cover0_9 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y
theorem cover0_10 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y

set_option maxHeartbeats 1000000 in
-- on buffers holding the nine input blocks the body keeps them and leaves the two functions above in the outputs
theorem sound_kernel0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S4000x128 .f32) (harg10 : arg10.IsWhole) (arg11 : Memref sig .tc .vmem S4000x128 .f32) (harg11 : arg11.IsWhole)
    (x0 : Vec F S4000x128 .f32) (x1 : Vec F S4000x128 .f32) (x2 : Vec F S4000x128 .f32) (x3 : Vec F S384x128 .f32) (x4 : Vec F S1x128 .f32) (x5 : Vec F S128x128 .f32) (x6 : Vec F S1x128 .f32) (x7 : Vec F S1x128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  iexists _; isplitr
  swap; · iexact H10
  ipureintro
  try dsimp only
  exact View.read_writes_eq_canon _ _ _ (cover0_10 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl

theorem Φ_eq0 (c : Dev nD) (t) : (dat0 V c).Φ t = Pipeline.ΦA spec0 c := rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Runs.lean ====
import proofs.«115762_j58188216926998_1_alg».proof.Proof.Gen.Kernel.Launch
import proofs.«115762_j58188216926998_1_alg».proof.Proof.Gen.Kernel.Skeleton
import proofs.«115762_j58188216926998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

theorem live1 : ∀ (t : Fin cfg1.N) (w : Fin cfg1.W), w.val < 5 ∨ cond1_1 (grid1.coords t) → cfg1.idle w (grid1.coords t) = false := by decide +kernel
theorem idle1 : ∀ (t : Fin cfg1.N) (w : Fin cfg1.W), 5 ≤ w.val → ¬cond1_1 (grid1.coords t) →
    cfg1.idle w (grid1.coords t) = true ∧ (cfg1.win w).flush t = false := by decide +kernel

abbrev VO1_4 : View sig .tc .vmem S4000x128 .f32 := (Memref.whole cc1_stg4_0 : Memref sig .tc .vmem S4000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
abbrev ms1_0 (t : Fin cfg1.N) : Memref sig .tc .vmem S4000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

section
variable (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)

set_option maxHeartbeats 4000000 in
noncomputable def kernelRun1_A (hc0 : cond1_0 i) (hc1 : ¬cond1_1 i)
    (x0 : Vec F S4000x128 .f32) (x1 : Vec F S4000x128 .f32) (x2 : Vec F S128x128 .f32) (x3 : Vec F S1x128 .f32) :
    Σ' (L4 : List (View.Piece (Elt F) S4000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__update_phase1_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc1__update_phase1_kernel_eq_skeleton]; unfold cc1__update_phase1_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
noncomputable def kernelRun1_B (hc0 : ¬cond1_0 i) (hc1 : ¬cond1_1 i)
    (x0 : Vec F S4000x128 .f32) (x1 : Vec F S4000x128 .f32) (x2 : Vec F S128x128 .f32) (x3 : Vec F S1x128 .f32) (xs0 : Vec F S1x128 .f32) (xs1 : Vec F S1x128 .f32) :
    Σ' (L4 : List (View.Piece (Elt F) S4000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__update_phase1_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc1__update_phase1_kernel_eq_skeleton]; unfold cc1__update_phase1_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
noncomputable def kernelRun1_C (hc0 : ¬cond1_0 i) (hc1 : cond1_1 i)
    (x0 : Vec F S4000x128 .f32) (x1 : Vec F S4000x128 .f32) (x2 : Vec F S128x128 .f32) (x3 : Vec F S1x128 .f32) (xs0 : Vec F S1x128 .f32) (xs1 : Vec F S1x128 .f32) :
    Σ' (L4 : List (View.Piece (Elt F) S4000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__update_phase1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__update_phase1_kernel_eq_skeleton]; unfold cc1__update_phase1_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end

end Cert.Kernel.Hand

end
-- ==== Proof.KR1.lean ====
import proofs.«115762_j58188216926998_1_alg».proof.Proof.KR1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
-- what five lists of stored pieces leave in the three outputs and the two accumulators
def outsOf (L4 : List (View.Piece (Elt F) S4000x128 .f32)) (L5 L6 LS0 LS1 : List (View.Piece (Elt F) S1x128 .f32)) : Vec F S4000x128 .f32 × Vec F S1x128 .f32 × Vec F S1x128 .f32 × Vec F S1x128 .f32 × Vec F S1x128 .f32 :=
  (VO1_4.read (Elt F) (VO1_4.writes (Elt F) VO1_4.junk L4), VO1_5.read (Elt F) (VO1_5.writes (Elt F) VO1_5.junk L5),
    VO1_6.read (Elt F) (VO1_6.writes (Elt F) VO1_6.junk L6), VS1_0.read (Elt F) (VS1_0.writes (Elt F) VS1_0.junk LS0),
    VS1_1.read (Elt F) (VS1_1.writes (Elt F) VS1_1.junk LS1))

section
variable (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
section
variable (hc0 : cond1_0 i) (hc1 : ¬cond1_1 i) (x0 : Vec F S4000x128 .f32) (x1 : Vec F S4000x128 .f32) (x2 : Vec F S128x128 .f32) (x3 : Vec F S1x128 .f32)
def outs1_A : Vec F S4000x128 .f32 × Vec F S1x128 .f32 × Vec F S1x128 .f32 × Vec F S1x128 .f32 × Vec F S1x128 .f32 :=
  let r := kernelRun1_A c i arg1 harg1 arg2 harg2 arg3 harg3 arg4 harg4 arg5 harg5 arg6 harg6 arg7 harg7 arg8 harg8 arg9 harg9 hc0 hc1 x0 x1 x2 x3
  outsOf r.1 r.2.1 r.2.2.1 r.2.2.2.1 r.2.2.2.2.1
theorem covers1_A : let r := kernelRun1_A c i arg1 harg1 arg2 harg2 arg3 harg3 arg4 harg4 arg5 harg5 arg6 harg6 arg7 harg7 arg8 harg8 arg9 harg9 hc0 hc1 x0 x1 x2 x3
    (∀ y : S4000x128.Idx, ∃ pc ∈ r.1, y ∈ pc.1.set) ∧ (∀ y : S1x128.Idx, ∃ pc ∈ r.2.2.2.1, y ∈ pc.1.set) ∧ (∀ y : S1x128.Idx, ∃ pc ∈ r.2.2.2.2.1, y ∈ pc.1.set) :=
  ⟨fun y => View.cover_of_tiledL _ S4000x128.size (by sl_kernel_rfl) y, fun y => View.cover_of_tiledL _ S1x128.size (by sl_kernel_rfl) y, fun y => View.cover_of_tiledL _ S1x128.size (by sl_kernel_rfl) y⟩
end
section
variable (hc0 : ¬cond1_0 i) (hc1 : ¬cond1_1 i) (x0 : Vec F S4000x128 .f32) (x1 : Vec F S4000x128 .f32) (x2 : Vec F S128x128 .f32) (x3 : Vec F S1x128 .f32) (xs0 : Vec F S1x128 .f32) (xs1 : Vec F S1x128 .f32)
def outs1_B : Vec F S4000x128 .f32 × Vec F S1x128 .f32 × Vec F S1x128 .f32 × Vec F S1x128 .f32 × Vec F S1x128 .f32 :=
  let r := kernelRun1_B c i arg1 harg1 arg2 harg2 arg3 harg3 arg4 harg4 arg5 harg5 arg6 harg6 arg7 harg7 arg8 harg8 arg9 harg9 hc0 hc1 x0 x1 x2 x3 xs0 xs1
  outsOf r.1 r.2.1 r.2.2.1 r.2.2.2.1 r.2.2.2.2.1
theorem covers1_B : let r := kernelRun1_B c i arg1 harg1 arg2 harg2 arg3 harg3 arg4 harg4 arg5 harg5 arg6 harg6 arg7 harg7 arg8 harg8 arg9 harg9 hc0 hc1 x0 x1 x2 x3 xs0 xs1
    (∀ y : S4000x128.Idx, ∃ pc ∈ r.1, y ∈ pc.1.set) ∧ (∀ y : S1x128.Idx, ∃ pc ∈ r.2.2.2.1, y ∈ pc.1.set) ∧ (∀ y : S1x128.Idx, ∃ pc ∈ r.2.2.2.2.1, y ∈ pc.1.set) :=
  ⟨fun y => View.cover_of_tiledL _ S4000x128.size (by sl_kernel_rfl) y, fun y => View.cover_of_tiledL _ S1x128.size (by sl_kernel_rfl) y, fun y => View.cover_of_tiledL _ S1x128.size (by sl_kernel_rfl) y⟩
end
section
variable (hc0 : ¬cond1_0 i) (hc1 : cond1_1 i) (x0 : Vec F S4000x128 .f32) (x1 : Vec F S4000x128 .f32) (x2 : Vec F S128x128 .f32) (x3 : Vec F S1x128 .f32) (xs0 : Vec F S1x128 .f32) (xs1 : Vec F S1x128 .f32)
def outs1_C : Vec F S4000x128 .f32 × Vec F S1x128 .f32 × Vec F S1x128 .f32 × Vec F S1x128 .f32 × Vec F S1x128 .f32 :=
  let r := kernelRun1_C c i arg1 harg1 arg2 harg2 arg3 harg3 arg4 harg4 arg5 harg5 arg6 harg6 arg7 harg7 arg8 harg8 arg9 harg9 hc0 hc1 x0 x1 x2 x3 xs0 xs1
  outsOf r.1 r.2.1 r.2.2.1 r.2.2.2.1 r.2.2.2.2.1
theorem covers1_C : let r := kernelRun1_C c i arg1 harg1 arg2 harg2 arg3 harg3 arg4 harg4 arg5 harg5 arg6 harg6 arg7 harg7 arg8 harg8 arg9 harg9 hc0 hc1 x0 x1 x2 x3 xs0 xs1
    (∀ y : S4000x128.Idx, ∃ pc ∈ r.1, y ∈ pc.1.set) ∧ (∀ y : S1x128.Idx, ∃ pc ∈ r.2.1, y ∈ pc.1.set) ∧ (∀ y : S1x128.Idx, ∃ pc ∈ r.2.2.1, y ∈ pc.1.set) ∧ (∀ y : S1x128.Idx, ∃ pc ∈ r.2.2.2.1, y ∈ pc.1.set) ∧ (∀ y : S1x128.Idx, ∃ pc ∈ r.2.2.2.2.1, y ∈ pc.1.set) :=
  ⟨fun y => View.cover_of_tiledL _ S4000x128.size (by sl_kernel_rfl) y, fun y => View.cover_of_tiledL _ S1x128.size (by sl_kernel_rfl) y, fun y => View.cover_of_tiledL _ S1x128.size (by sl_kernel_rfl) y, fun y => View.cover_of_tiledL _ S1x128.size (by sl_kernel_rfl) y, fun y => View.cover_of_tiledL _ S1x128.size (by sl_kernel_rfl) y⟩
end
end

-- after the n-th block of rows: that block of u = relu((feat + m_sum)·U1 + bu1), and the column sums and sums of squares of all rows so far;
-- the last block also gives the column mean and the variance E[u²] − E[u]²
def outsAt1 (c : Dev nD) : (n : ℕ) → n < cfg1.N → Vec F S4000x128 .f32 × Vec F S1x128 .f32 × Vec F S1x128 .f32 × Vec F S1x128 .f32 × Vec F S1x128 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 5 = 0 then
      if h1 : (n + 1) % 5 = 4 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 5 = 4 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2

theorem outsAt1_A (c : Dev nD) (t : Fin cfg1.N) (h0 : t.val % 5 = 0) (h1 : ¬t.val % 5 = 4) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1 t 0 (.inl (by decide))], after1_0]
  rw [show (dat1 V c).leavesExact 1 t = owns (c : Thread nD τ) (ms1_1 t) fullShare ((dat1 V c).after 1 t) from by
    unfold Dat.leavesExact; rw [live1 t 1 (.inl (by decide))], after1_1]
  rw [show (dat1 V c).leavesExact 2 t = owns (c : Thread nD τ) (ms1_2 t) fullShare ((dat1 V c).after 2 t) from by
    unfold Dat.leavesExact; rw [live1 t 2 (.inl (by decide))], after1_2]
  rw [show (dat1 V c).leavesExact 3 t = owns (c : Thread nD τ) (ms1_3 t) fullShare ((dat1 V c).after 3 t) from by
    unfold Dat.leavesExact; rw [live1 t 3 (.inl (by decide))], after1_3]
  rw [show (dat1 V c).leavesExact 4 t = owns (c : Thread nD τ) (ms1_4 t) fullShare ((dat1 V c).after 4 t) from by
    unfold Dat.leavesExact; rw [live1 t 4 (.inl (by decide))], after1_4]
  have hN : t.val < 5 := lt_of_lt_of_eq t.isLt (show cfg1.N = 5 from N_1)
  by_cases h0 : t.val % 5 = 0
  · by_cases h1 : t.val % 5 = 4
    · exfalso; omega
    · rw [Dat.leavesExact_idle (dat1 V c) 5 t (idle1 t 5 (by decide) fun h => h1 ((hcond1_1 t).mp h)).1 (idle1 t 5 (by decide) fun h => h1 ((hcond1_1 t).mp h)).2]
      rw [Dat.leavesExact_idle (dat1 V c) 6 t (idle1 t 6 (by decide) fun h => h1 ((hcond1_1 t).mp h)).1 (idle1 t 6 (by decide) fun h => h1 ((hcond1_1 t).mp h)).2]
      rw [outsAt1_A V c t h0 h1]
      unfold outs1_A outsOf; (try dsimp only)
      have hz : t.val = 0 := by omega
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (covers1_A c _ _ _ _ _ _ _ _ _ _ _ _ _ _ _ _ _ _ _ _ _ _ _ _ _).2.1
            unfold owns; iexists _; isplitr
            swap; · iexact HS1
            ipureintro; exact View.read_writes_of_cover _ _ _ _ _ (covers1_A c _ _ _ _ _ _ _ _ _ _ _ _ _ _ _ _ _ _ _ _ _ _ _ _ _).2.2
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (covers1_A c _ _ _ _ _ _ _ _ _ _ _ _ _ _ _ _ _ _ _ _ _ _ _ _ _).1
      isplitl [H5]; · iexists _; iexact H5
      iexists _; iexact H6
  · by_cases h1 : t.val % 5 = 4
    · rw [show (dat1 V c).leavesExact 5 t = owns (c : Thread nD τ) (ms1_5 t) fullShare ((dat1 V c).after 5 t) from by
        unfold Dat.leavesExact; rw [live1 t 5 (.inr ((hcond1_1 t).mpr h1))], after1_5]
      rw [show (dat1 V c).leavesExact 6 t = owns (c : Thread nD τ) (ms1_6 t) fullShare ((dat1 V c).after 6 t) from by
        unfold Dat.leavesExact; rw [live1 t 6 (.inr ((hcond1_1 t).mpr h1))], after1_6]
      rw [outsAt1_C V c t h0 h1]
      unfold outs1_C outsOf; (try dsimp only)
      have hz : t.val ≠ 0 := by omega
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (covers1_C c _ _ _ _ _ _ _ _ _ _ _ _ _ _ _ _ _ _ _ _ _ _ _ _ _ _ _).2.2.2.1
            unfold owns; iexists _; isplitr
            swap; · iexact HS1
            ipureintro; exact View.read_writes_of_cover _ _ _ _ _ (covers1_C c _ _ _ _ _ _ _ _ _ _ _ _ _ _ _ _ _ _ _ _ _ _ _ _ _ _ _).2.2.2.2
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (covers1_C c _ _ _ _ _ _ _ _ _ _ _ _ _ _ _ _ _ _ _ _ _ _ _ _ _ _ _).1
      isplitl [H5]
      · unfold owns; iexists _; isplitr
        swap; · iexact H5
        ipureintro; exact View.read_writes_of_cover _ _ _ _ _ (covers1_C c _ _ _ _ _ _ _ _ _ _ _ _ _ _ _ _ _ _ _ _ _ _ _ _ _ _ _).2.1
      unfold owns; iexists _; isplitr
      swap; · iexact H6
      ipureintro; exact View.read_writes_of_cover _ _ _ _ _ (covers1_C c _ _ _ _ _ _ _ _ _ _ _ _ _ _ _ _ _ _ _ _ _ _ _ _ _ _ _).2.2.1
    · rw [Dat.leavesExact_idle (dat1 V c) 5 t (idle1 t 5 (by decide) fun h => h1 ((hcond1_1 t).mp h)).1 (idle1 t 5 (by decide) fun h => h1 ((hcond1_1 t).mp h)).2]
      rw [Dat.leavesExact_idle (dat1 V c) 6 t (idle1 t 6 (by decide) fun h => h1 ((hcond1_1 t).mp h)).1 (idle1 t 6 (by decide) fun h => h1 ((hcond1_1 t).mp h)).2]
      rw [outsAt1_B V c t h0 h1]
      unfold outs1_B outsOf; (try dsimp only)
      have hz : t.val ≠ 0 := by omega
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (covers1_B c _ _ _ _ _ _ _ _ _ _ _ _ _ _ _ _ _ _ _ _ _ _ _ _ _ _ _).2.1
            unfold owns; iexists _; isplitr
            swap; · iexact HS1
            ipureintro; exact View.read_writes_of_cover _ _ _ _ _ (covers1_B c _ _ _ _ _ _ _ _ _ _ _ _ _ _ _ _ _ _ _ _ _ _ _ _ _ _ _).2.2
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (covers1_B c _ _ _ _ _ _ _ _ _ _ _ _ _ _ _ _ _ _ _ _ _ _ _ _ _ _ _).1
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ Pipeline.scopedRest (Ix := Unit) (Name := ℕ) (U := UR sig nD τ) (Lvl := ℕ) spec1 c) ⊢ (dat1 V c).Φ 0 := by
  rw [show (dat1 V c).Φ 0 = PhiS1 V c 0 (Nat.zero_le _) from rfl, PhiS1_zero V c 0 _ rfl]; unfold Pipeline.ΦA
  iintro ⟨Hp, Hr⟩
  isplitl [Hr]; · iexact Hr
  iexact Hp

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout1 (c : Dev nD) : (dat1 V c).Φ (Fin.last cfg1.N) ⊢ iprop((∃ r, prngReg c r) ∗ Pipeline.scopedRest (Ix := Unit) (Name := ℕ) (U := UR sig nD τ) (Lvl := ℕ) spec1 c) := by
  refine (Phi_out1 V c _ (by rw [Fin.val_last]; have : cfg1.N = 5 := N_1; omega)).trans ?_
  unfold Pipeline.ΦA
  iintro ⟨Hr, Hp⟩
  isplitl [Hp]; · iexact Hp
  iexact Hr

end Cert.Kernel.Hand

end
-- ==== Proof.KR2.lean ====
import proofs.«115762_j58188216926998_1_alg».proof.Proof.Gen.Kernel.Launch
import proofs.«115762_j58188216926998_1_alg».proof.Proof.Gen.Kernel.Skeleton
import proofs.«115762_j58188216926998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0

-- a block of rows of the result: u normalised by the column mean and variance, scaled and shifted, times U2, plus bu2 and the residual
def out2_8 (x0 : Vec F S4000x128 .f32) (x1 : Vec F S4000x128 .f32) (x2 : Vec F S1x128 .f32) (x3 : Vec F S1x128 .f32)
    (x4 : Vec F S1x128 .f32) (x5 : Vec F S1x128 .f32) (x6 : Vec F S128x128 .f32) (x7 : Vec F S1x128 .f32) : Vec F S4000x128 .f32 :=
  View.canon [⟨r2_0, k2_pay1 (View.ld x0 r2_0) (View.ld x2 r2_1) (View.ld x3 r2_1) (View.ld x4 r2_1) (View.ld x5 r2_1)
    (View.ld x6 r2_2) (View.ld x7 r2_1) (View.ld x1 r2_0)⟩]

theorem cover2_8 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

set_option maxHeartbeats 1000000 in
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4000x128 .f32) (harg9 : arg9.IsWhole)
    (x0 : Vec F S4000x128 .f32) (x1 : Vec F S4000x128 .f32) (x2 : Vec F S1x128 .f32) (x3 : Vec F S1x128 .f32) (x4 : Vec F S1x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__update_phase2_kernel i arg1 harg1 arg2 harg2 arg3 harg3 arg4 harg4 arg5 harg5 arg6 harg6 arg7 harg7 arg8 harg8 arg9 harg9) K := by
  simp only [cc2__update_phase2_kernel_eq_skeleton]; unfold cc2__update_phase2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
import proofs.«115762_j58188216926998_1_alg».proof.Proof.KR0
import proofs.«115762_j58188216926998_1_alg».proof.Proof.KR1
import proofs.«115762_j58188216926998_1_alg».proof.Proof.KR2
import proofs.«115762_j58188216926998_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

theorem ΦA_in {n k : ℕ} (spec : Fin n → Pipeline.WinSpec sig k) (c : Dev nD) :
    iprop((∃ r, prngReg c r) ∗ Pipeline.scopedRest (Ix := Unit) (Name := ℕ) (U := UR sig nD τ) (Lvl := ℕ) (Val := Elt F) spec c)
      ⊢ (Pipeline.ΦA spec c : sProp 𝕄) := by
  unfold Pipeline.ΦA
  iintro ⟨Hp, Hr⟩
  isplitl [Hr]; · iexact Hr
  iexact Hp

theorem ΦA_out {n k : ℕ} (spec : Fin n → Pipeline.WinSpec sig k) (c : Dev nD) :
    (Pipeline.ΦA spec c : sProp 𝕄)
      ⊢ iprop((∃ r, prngReg c r) ∗ Pipeline.scopedRest (Ix := Unit) (Name := ℕ) (U := UR sig nD τ) (Lvl := ℕ) (Val := Elt F) spec c) := by
  unfold Pipeline.ΦA
  iintro ⟨Hr, Hp⟩
  isplitl [Hp]; · iexact Hp
  iexact Hr

-- one kernel call as a step between the contents of all arrays before it and after it: only its own output arrays change
set_option backward.isDefEq.respectTransparency.types false in
def mkReg (p : Fin 3) (lf : Pipeline.LaunchFacts (nD := nD) (τ := τ) cfgs p) (Wi Wo : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hA : ∀ c w, (pdats m ρ p c).A w = Wi c (Proc.devRef .tc (Pipeline.arrRef (Pipeline.pin (pcfgs (F := F)) adm p).spec w)))
    (hF : ∀ c w, (pdats m ρ p c).arrAt w (Pipeline.pin (pcfgs (F := F)) adm p).N = Wo c (Proc.devRef .tc (Pipeline.arrRef (Pipeline.pin (pcfgs (F := F)) adm p).spec w)))
    (hrest : ∀ c (b : Ref sig .tc), (∀ w, Pipeline.arrRef (Pipeline.pin (pcfgs (F := F)) adm p).spec w ≠ b) → Wo c (Proc.devRef .tc b) = Wi c (Proc.devRef .tc b))
    (hin : ∀ c, iprop((∃ r, prngReg c r) ∗ Pipeline.scopedRest (Ix := Unit) (Name := ℕ) (U := UR sig nD τ) (Lvl := ℕ) (Val := Elt F) (Pipeline.pin (pcfgs (F := F)) adm p).spec c) ⊢ (pdats m ρ p c).Φ 0)
    (hout : ∀ c, (pdats m ρ p c).Φ (Fin.last _) ⊢ iprop((∃ r, prngReg c r) ∗ Pipeline.scopedRest (Ix := Unit) (Name := ℕ) (U := UR sig nD τ) (Lvl := ℕ) (Val := Elt F) (Pipeline.pin (pcfgs (F := F)) adm p).spec c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c (Proc.devRef .tc b))
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c 0 ▸ trivial)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c (Proc.devRef .tc b)) (fun b => Wo c (Proc.devRef .tc b)) ((pdats m ρ p c).arrAt · (Pipeline.pin (pcfgs (F := F)) adm p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

set_option backward.isDefEq.respectTransparency.types false in
abbrev reg0 := mkReg m ρ 0 launch0 (W1 m ρ) (W2 m ρ) (body_obligation0 (V1 m ρ)) (fun _ _ => rfl) (fun _ _ => rfl) (fun _ _ => rfl) (fun _ _ => rfl)
  (fun c w => (W2_arr m ρ c w).symm) (W2_of_ne m ρ) (ΦA_in spec0) (ΦA_out spec0)
set_option backward.isDefEq.respectTransparency.types false in
abbrev reg1 := mkReg m ρ 1 launch1 (W3 m ρ) (W4 m ρ) (body_obligation1 (V3 m ρ)) (fun _ _ => rfl) (fun _ _ => rfl) (fun _ _ => rfl) (fun _ _ => rfl)
  (fun c w => (W4_arr m ρ c w).symm) (W4_of_ne m ρ) (hin1 (V3 m ρ)) (hout1 (V3 m ρ))
set_option backward.isDefEq.respectTransparency.types false in
abbrev reg2 := mkReg m ρ 2 launch2 (W4 m ρ) (W5 m ρ) (body_obligation2 (V4 m ρ)) (fun _ _ => rfl) (fun _ _ => rfl) (fun _ _ => rfl) (fun _ _ => rfl)
  (fun c w => (W5_arr m ρ c w).symm) (W5_of_ne m ρ) (ΦA_in spec2) (ΦA_out spec2)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show iprop(StableHlo.held (c : Thread nD τ) (Pipeline.ucRefs τ sig) (W5 m ρ c) ∗ R c)
        ⊢ (iprop(Tₙ m ρ c ∗ ∃ W, owes (c : Thread nD τ) (0 : CellTallies nD τ sig Unit) W) : sProp 𝕄) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))

-- an array that no host operation writes and that every kernel call at most reads ends as it started
theorem W5_keep (c : Dev nD) (r : Ref sig .tc)
    (h : r ∉ hostOps0_W ∧ r ∉ hostOps1_W
      ∧ ((∀ w, Pipeline.arrRef spec0 w ≠ r) ∨ ∃ w, (cfg0.win w).isOut = false ∧ Pipeline.arrRef spec0 w = r)
      ∧ ((∀ w, Pipeline.arrRef spec1 w ≠ r) ∨ ∃ w, (cfg1.win w).isOut = false ∧ Pipeline.arrRef spec1 w = r)
      ∧ ((∀ w, Pipeline.arrRef spec2 w ≠ r) ∨ ∃ w, (cfg2.win w).isOut = false ∧ Pipeline.arrRef spec2 w = r)) :
    W5 m ρ c (Proc.devRef .tc r) = m ((c : Thread nD τ).loc r) := by
  obtain ⟨h0, h1, a0, a1, a2⟩ := h
  have e2 : W2 m ρ c (Proc.devRef .tc r) = W1 m ρ c (Proc.devRef .tc r) :=
    a0.elim (W2_of_ne m ρ c r) fun ⟨w, hw, e⟩ => e ▸ W2_in m ρ c w hw
  have e4 : W4 m ρ c (Proc.devRef .tc r) = W3 m ρ c (Proc.devRef .tc r) :=
    a1.elim (W4_of_ne m ρ c r) fun ⟨w, hw, e⟩ => e ▸ W4_in m ρ c w hw
  have e5 : W5 m ρ c (Proc.devRef .tc r) = W4 m ρ c (Proc.devRef .tc r) :=
    a2.elim (W5_of_ne m ρ c r) fun ⟨w, hw, e⟩ => e ▸ W5_in m ρ c w hw
  exact e5.trans (e4.trans ((W3_of m ρ c r h1).trans (e2.trans (W1_of m ρ c r h0))))

theorem kept (c : Dev nD) (r : Ref sig .tc) (hr : ¬ (Proc.devRef .tc r : DevRef τ sig).isScoped)
    (h : r ∉ hostOps0_W ∧ r ∉ hostOps1_W
      ∧ ((∀ w, Pipeline.arrRef spec0 w ≠ r) ∨ ∃ w, (cfg0.win w).isOut = false ∧ Pipeline.arrRef spec0 w = r)
      ∧ ((∀ w, Pipeline.arrRef spec1 w ≠ r) ∨ ∃ w, (cfg1.win w).isOut = false ∧ Pipeline.arrRef spec1 w = r)
      ∧ ((∀ w, Pipeline.arrRef spec2 w ≠ r) ∨ ∃ w, (cfg2.win w).isOut = false ∧ Pipeline.arrRef spec2 w = r))
    {s : (ℓ : Loc nD τ sig) → Buf (Elt F) ℓ} (hs : ∀ b ∈ Pipeline.ucRefs τ sig, s (((c : Thread nD τ)).1, b) = W5 m ρ c b) :
    s ((c.tc : Thread nD τ).loc r) = m ((c.tc : Thread nD τ).loc r) :=
  (hs _ (mem_uc r hr)).trans (W5_keep m ρ c r h)

end Cert.Kernel.Hand

end
-- ==== Proof.KIR0.lean ====
import proofs.«115762_j58188216926998_1_alg».proof.Proof.Gen.KernelIdeal.Launch
import proofs.«115762_j58188216926998_1_alg».proof.Proof.Gen.KernelIdeal.Skeleton
import proofs.«115762_j58188216926998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x128 := Rect.unit (s := S4000x128) ![0, 0] S4000x128.size inb_S4000x128_S4000x128_0_0
abbrev r0_1 : Rect S384x128 := Rect.unit (s := S384x128) ![0, 0] S128x128.size inb_S384x128_S128x128_0_0
abbrev r0_2 : Rect S384x128 := Rect.unit (s := S384x128) ![128, 0] S128x128.size inb_S384x128_S128x128_128_0
abbrev r0_3 : Rect S384x128 := Rect.unit (s := S384x128) ![256, 0] S128x128.size inb_S384x128_S128x128_256_0
abbrev r0_4 : Rect S1x128 := Rect.unit (s := S1x128) ![0, 0] S1x128.size inb_S1x128_S1x128_0_0
abbrev r0_5 : Rect S128x128 := Rect.unit (s := S128x128) ![0, 0] S128x128.size inb_S128x128_S128x128_0_0
abbrev r0_6 : Rect S1x1 := Rect.unit (s := S1x1) ![0, 0] S1x1.size inb_S1x1_S1x1_0_0

-- the new edge state: the edge input plus the message m = silu(relu(x_src·W1a + x_dst·W1b + d·W1c + b1)·W2 + b2), on one block of rows
def out0_9 (x0 : Vec F S4000x128 .f32) (x1 : Vec F S4000x128 .f32) (x2 : Vec F S4000x128 .f32) (x3 : Vec F S384x128 .f32) (x4 : Vec F S1x128 .f32) (x5 : Vec F S128x128 .f32) (x6 : Vec F S1x128 .f32) (x7 : Vec F S1x128 .f32) (x8 : Vec F S1x1 .f32) : Vec F S4000x128 .f32 :=
  View.canon [⟨r0_0, k0_pay3 (View.ld x0 r0_0) (View.ld x1 r0_0) (View.ld x2 r0_0) (View.ld x3 r0_1) (View.ld x3 r0_2) (View.ld x3 r0_3) (View.ld x4 r0_4) (View.ld x5 r0_5) (View.ld x6 r0_4)⟩]

-- the gated message: each row of m scaled by the logistic of its inner product with the gate weights plus the gate bias
def out0_10 (x0 : Vec F S4000x128 .f32) (x1 : Vec F S4000x128 .f32) (x2 : Vec F S4000x128 .f32) (x3 : Vec F S384x128 .f32) (x4 : Vec F S1x128 .f32) (x5 : Vec F S128x128 .f32) (x6 : Vec F S1x128 .f32) (x7 : Vec F S1x128 .f32) (x8 : Vec F S1x1 .f32) : Vec F S4000x128 .f32 :=
  View.canon [⟨r0_0, k0_pay1 (k0_pay2 (View.ld x0 r0_0) (View.ld x1 r0_0) (View.ld x2 r0_0) (View.ld x3 r0_1) (View.ld x3 r0_2) (View.ld x3 r0_3) (View.ld x4 r0_4) (View.ld x5 r0_5) (View.ld x6 r0_4)) (View.ld x7 r0_4) (View.ld x8 r0_6)⟩]

theorem cover0_9 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y
theorem cover0_10 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y

set_option maxHeartbeats 1000000 in
-- on buffers holding the nine input blocks the body keeps them and leaves the two functions above in the outputs
theorem sound_kernel0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S4000x128 .f32) (harg10 : arg10.IsWhole) (arg11 : Memref sig .tc .vmem S4000x128 .f32) (harg11 : arg11.IsWhole)
    (x0 : Vec F S4000x128 .f32) (x1 : Vec F S4000x128 .f32) (x2 : Vec F S4000x128 .f32) (x3 : Vec F S384x128 .f32) (x4 : Vec F S1x128 .f32) (x5 : Vec F S128x128 .f32) (x6 : Vec F S1x128 .f32) (x7 : Vec F S1x128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  iexists _; isplitr
  swap; · iexact H10
  ipureintro
  try dsimp only
  exact View.read_writes_eq_canon _ _ _ (cover0_10 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl

theorem Φ_eq0 (c : Dev nD) (t) : (dat0 V c).Φ t = Pipeline.ΦA spec0 c := rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIR1Runs.lean ====
import proofs.«115762_j58188216926998_1_alg».proof.Proof.Gen.KernelIdeal.Launch
import proofs.«115762_j58188216926998_1_alg».proof.Proof.Gen.KernelIdeal.Skeleton
import proofs.«115762_j58188216926998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

theorem live1 : ∀ (t : Fin cfg1.N) (w : Fin cfg1.W), w.val < 5 ∨ cond1_1 (grid1.coords t) → cfg1.idle w (grid1.coords t) = false := by decide +kernel
theorem idle1 : ∀ (t : Fin cfg1.N) (w : Fin cfg1.W), 5 ≤ w.val → ¬cond1_1 (grid1.coords t) →
    cfg1.idle w (grid1.coords t) = true ∧ (cfg1.win w).flush t = false := by decide +kernel

abbrev VO1_4 : View sig .tc .vmem S4000x128 .f32 := (Memref.whole cc1_stg4_0 : Memref sig .tc .vmem S4000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
abbrev ms1_0 (t : Fin cfg1.N) : Memref sig .tc .vmem S4000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

section
variable (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)

set_option maxHeartbeats 4000000 in
noncomputable def kernelRun1_A (hc0 : cond1_0 i) (hc1 : ¬cond1_1 i)
    (x0 : Vec F S4000x128 .f32) (x1 : Vec F S4000x128 .f32) (x2 : Vec F S128x128 .f32) (x3 : Vec F S1x128 .f32) :
    Σ' (L4 : List (View.Piece (Elt F) S4000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__update_phase1_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc1__update_phase1_kernel_eq_skeleton]; unfold cc1__update_phase1_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
noncomputable def kernelRun1_B (hc0 : ¬cond1_0 i) (hc1 : ¬cond1_1 i)
    (x0 : Vec F S4000x128 .f32) (x1 : Vec F S4000x128 .f32) (x2 : Vec F S128x128 .f32) (x3 : Vec F S1x128 .f32) (xs0 : Vec F S1x128 .f32) (xs1 : Vec F S1x128 .f32) :
    Σ' (L4 : List (View.Piece (Elt F) S4000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__update_phase1_kernel i arg1 harg1 arg2 harg2 arg3 harg3 arg4 harg4 arg5 harg5 arg6 harg6 arg7 harg7 arg8 harg8 arg9 harg9) K } := by
  refine ⟨?_, [], [], ?_, ?_, fun xi5 xi6 E K => ?run⟩
  case run =>
    simp only [cc1__update_phase1_kernel_eq_skeleton]; unfold cc1__update_phase1_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
noncomputable def kernelRun1_C (hc0 : ¬cond1_0 i) (hc1 : cond1_1 i)
    (x0 : Vec F S4000x128 .f32) (x1 : Vec F S4000x128 .f32) (x2 : Vec F S128x128 .f32) (x3 : Vec F S1x128 .f32) (xs0 : Vec F S1x128 .f32) (xs1 : Vec F S1x128 .f32) :
    Σ' (L4 : List (View.Piece (Elt F) S4000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__update_phase1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__update_phase1_kernel_eq_skeleton]; unfold cc1__update_phase1_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end

end Cert.KernelIdeal.Hand

end
-- ==== Proof.KIR1.lean ====
import proofs.«115762_j58188216926998_1_alg».proof.Proof.KIR1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
-- what five lists of stored pieces leave in the three outputs and the two accumulators
def outsOf (L4 : List (View.Piece (Elt F) S4000x128 .f32)) (L5 L6 LS0 LS1 : List (View.Piece (Elt F) S1x128 .f32)) : Vec F S4000x128 .f32 × Vec F S1x128 .f32 × Vec F S1x128 .f32 × Vec F S1x128 .f32 × Vec F S1x128 .f32 :=
  (VO1_4.read (Elt F) (VO1_4.writes (Elt F) VO1_4.junk L4), VO1_5.read (Elt F) (VO1_5.writes (Elt F) VO1_5.junk L5),
    VO1_6.read (Elt F) (VO1_6.writes (Elt F) VO1_6.junk L6), VS1_0.read (Elt F) (VS1_0.writes (Elt F) VS1_0.junk LS0),
    VS1_1.read (Elt F) (VS1_1.writes (Elt F) VS1_1.junk LS1))

section
variable (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
section
variable (hc0 : cond1_0 i) (hc1 : ¬cond1_1 i) (x0 : Vec F S4000x128 .f32) (x1 : Vec F S4000x128 .f32) (x2 : Vec F S128x128 .f32) (x3 : Vec F S1x128 .f32)
def outs1_A : Vec F S4000x128 .f32 × Vec F S1x128 .f32 × Vec F S1x128 .f32 × Vec F S1x128 .f32 × Vec F S1x128 .f32 :=
  let r := kernelRun1_A c i arg1 harg1 arg2 harg2 arg3 harg3 arg4 harg4 arg5 harg5 arg6 harg6 arg7 harg7 arg8 harg8 arg9 harg9 hc0 hc1 x0 x1 x2 x3
  outsOf r.1 r.2.1 r.2.2.1 r.2.2.2.1 r.2.2.2.2.1
theorem covers1_A : let r := kernelRun1_A c i arg1 harg1 arg2 harg2 arg3 harg3 arg4 harg4 arg5 harg5 arg6 harg6 arg7 harg7 arg8 harg8 arg9 harg9 hc0 hc1 x0 x1 x2 x3
    (∀ y : S4000x128.Idx, ∃ pc ∈ r.1, y ∈ pc.1.set) ∧ (∀ y : S1x128.Idx, ∃ pc ∈ r.2.2.2.1, y ∈ pc.1.set) ∧ (∀ y : S1x128.Idx, ∃ pc ∈ r.2.2.2.2.1, y ∈ pc.1.set) :=
  ⟨fun y => View.cover_of_tiledL _ S4000x128.size (by sl_kernel_rfl) y, fun y => View.cover_of_tiledL _ S1x128.size (by sl_kernel_rfl) y, fun y => View.cover_of_tiledL _ S1x128.size (by sl_kernel_rfl) y⟩
end
section
variable (hc0 : ¬cond1_0 i) (hc1 : ¬cond1_1 i) (x0 : Vec F S4000x128 .f32) (x1 : Vec F S4000x128 .f32) (x2 : Vec F S128x128 .f32) (x3 : Vec F S1x128 .f32) (xs0 : Vec F S1x128 .f32) (xs1 : Vec F S1x128 .f32)
def outs1_B : Vec F S4000x128 .f32 × Vec F S1x128 .f32 × Vec F S1x128 .f32 × Vec F S1x128 .f32 × Vec F S1x128 .f32 :=
  let r := kernelRun1_B c i arg1 harg1 arg2 harg2 arg3 harg3 arg4 harg4 arg5 harg5 arg6 harg6 arg7 harg7 arg8 harg8 arg9 harg9 hc0 hc1 x0 x1 x2 x3 xs0 xs1
  outsOf r.1 r.2.1 r.2.2.1 r.2.2.2.1 r.2.2.2.2.1
theorem covers1_B : let r := kernelRun1_B c i arg1 harg1 arg2 harg2 arg3 harg3 arg4 harg4 arg5 harg5 arg6 harg6 arg7 harg7 arg8 harg8 arg9 harg9 hc0 hc1 x0 x1 x2 x3 xs0 xs1
    (∀ y : S4000x128.Idx, ∃ pc ∈ r.1, y ∈ pc.1.set) ∧ (∀ y : S1x128.Idx, ∃ pc ∈ r.2.2.2.1, y ∈ pc.1.set) ∧ (∀ y : S1x128.Idx, ∃ pc ∈ r.2.2.2.2.1, y ∈ pc.1.set) :=
  ⟨fun y => View.cover_of_tiledL _ S4000x128.size (by sl_kernel_rfl) y, fun y => View.cover_of_tiledL _ S1x128.size (by sl_kernel_rfl) y, fun y => View.cover_of_tiledL _ S1x128.size (by sl_kernel_rfl) y⟩
end
section
variable (hc0 : ¬cond1_0 i) (hc1 : cond1_1 i) (x0 : Vec F S4000x128 .f32) (x1 : Vec F S4000x128 .f32) (x2 : Vec F S128x128 .f32) (x3 : Vec F S1x128 .f32) (xs0 : Vec F S1x128 .f32) (xs1 : Vec F S1x128 .f32)
def outs1_C : Vec F S4000x128 .f32 × Vec F S1x128 .f32 × Vec F S1x128 .f32 × Vec F S1x128 .f32 × Vec F S1x128 .f32 :=
  let r := kernelRun1_C c i arg1 harg1 arg2 harg2 arg3 harg3 arg4 harg4 arg5 harg5 arg6 harg6 arg7 harg7 arg8 harg8 arg9 harg9 hc0 hc1 x0 x1 x2 x3 xs0 xs1
  outsOf r.1 r.2.1 r.2.2.1 r.2.2.2.1 r.2.2.2.2.1
theorem covers1_C : let r := kernelRun1_C c i arg1 harg1 arg2 harg2 arg3 harg3 arg4 harg4 arg5 harg5 arg6 harg6 arg7 harg7 arg8 harg8 arg9 harg9 hc0 hc1 x0 x1 x2 x3 xs0 xs1
    (∀ y : S4000x128.Idx, ∃ pc ∈ r.1, y ∈ pc.1.set) ∧ (∀ y : S1x128.Idx, ∃ pc ∈ r.2.1, y ∈ pc.1.set) ∧ (∀ y : S1x128.Idx, ∃ pc ∈ r.2.2.1, y ∈ pc.1.set) ∧ (∀ y : S1x128.Idx, ∃ pc ∈ r.2.2.2.1, y ∈ pc.1.set) ∧ (∀ y : S1x128.Idx, ∃ pc ∈ r.2.2.2.2.1, y ∈ pc.1.set) :=
  ⟨fun y => View.cover_of_tiledL _ S4000x128.size (by sl_kernel_rfl) y, fun y => View.cover_of_tiledL _ S1x128.size (by sl_kernel_rfl) y, fun y => View.cover_of_tiledL _ S1x128.size (by sl_kernel_rfl) y, fun y => View.cover_of_tiledL _ S1x128.size (by sl_kernel_rfl) y, fun y => View.cover_of_tiledL _ S1x128.size (by sl_kernel_rfl) y⟩
end
end

-- after the n-th block of rows: that block of u = relu((feat + m_sum)·U1 + bu1), and the column sums and sums of squares of all rows so far;
-- the last block also gives the column mean and the variance E[u²] − E[u]²
def outsAt1 (c : Dev nD) : (n : ℕ) → n < cfg1.N → Vec F S4000x128 .f32 × Vec F S1x128 .f32 × Vec F S1x128 .f32 × Vec F S1x128 .f32 × Vec F S1x128 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 5 = 0 then
      if h1 : (n + 1) % 5 = 4 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 5 = 4 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2

theorem outsAt1_A (c : Dev nD) (t : Fin cfg1.N) (h0 : t.val % 5 = 0) (h1 : ¬t.val % 5 = 4) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1 t 0 (.inl (by decide))], after1_0]
  rw [show (dat1 V c).leavesExact 1 t = owns (c : Thread nD τ) (ms1_1 t) fullShare ((dat1 V c).after 1 t) from by
    unfold Dat.leavesExact; rw [live1 t 1 (.inl (by decide))], after1_1]
  rw [show (dat1 V c).leavesExact 2 t = owns (c : Thread nD τ) (ms1_2 t) fullShare ((dat1 V c).after 2 t) from by
    unfold Dat.leavesExact; rw [live1 t 2 (.inl (by decide))], after1_2]
  rw [show (dat1 V c).leavesExact 3 t = owns (c : Thread nD τ) (ms1_3 t) fullShare ((dat1 V c).after 3 t) from by
    unfold Dat.leavesExact; rw [live1 t 3 (.inl (by decide))], after1_3]
  rw [show (dat1 V c).leavesExact 4 t = owns (c : Thread nD τ) (ms1_4 t) fullShare ((dat1 V c).after 4 t) from by
    unfold Dat.leavesExact; rw [live1 t 4 (.inl (by decide))], after1_4]
  have hN : t.val < 5 := lt_of_lt_of_eq t.isLt (show cfg1.N = 5 from N_1)
  by_cases h0 : t.val % 5 = 0
  · by_cases h1 : t.val % 5 = 4
    · exfalso; omega
    · rw [Dat.leavesExact_idle (dat1 V c) 5 t (idle1 t 5 (by decide) fun h => h1 ((hcond1_1 t).mp h)).1 (idle1 t 5 (by decide) fun h => h1 ((hcond1_1 t).mp h)).2]
      rw [Dat.leavesExact_idle (dat1 V c) 6 t (idle1 t 6 (by decide) fun h => h1 ((hcond1_1 t).mp h)).1 (idle1 t 6 (by decide) fun h => h1 ((hcond1_1 t).mp h)).2]
      rw [outsAt1_A V c t h0 h1]
      unfold outs1_A outsOf; (try dsimp only)
      have hz : t.val = 0 := by omega
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (covers1_A c _ _ _ _ _ _ _ _ _ _ _ _ _ _ _ _ _ _ _ _ _ _ _ _ _).2.1
            unfold owns; iexists _; isplitr
            swap; · iexact HS1
            ipureintro; exact View.read_writes_of_cover _ _ _ _ _ (covers1_A c _ _ _ _ _ _ _ _ _ _ _ _ _ _ _ _ _ _ _ _ _ _ _ _ _).2.2
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (covers1_A c _ _ _ _ _ _ _ _ _ _ _ _ _ _ _ _ _ _ _ _ _ _ _ _ _).1
      isplitl [H5]; · iexists _; iexact H5
      iexists _; iexact H6
  · by_cases h1 : t.val % 5 = 4
    · rw [show (dat1 V c).leavesExact 5 t = owns (c : Thread nD τ) (ms1_5 t) fullShare ((dat1 V c).after 5 t) from by
        unfold Dat.leavesExact; rw [live1 t 5 (.inr ((hcond1_1 t).mpr h1))], after1_5]
      rw [show (dat1 V c).leavesExact 6 t = owns (c : Thread nD τ) (ms1_6 t) fullShare ((dat1 V c).after 6 t) from by
        unfold Dat.leavesExact; rw [live1 t 6 (.inr ((hcond1_1 t).mpr h1))], after1_6]
      rw [outsAt1_C V c t h0 h1]
      unfold outs1_C outsOf; (try dsimp only)
      have hz : t.val ≠ 0 := by omega
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (covers1_C c _ _ _ _ _ _ _ _ _ _ _ _ _ _ _ _ _ _ _ _ _ _ _ _ _ _ _).2.2.2.1
            unfold owns; iexists _; isplitr
            swap; · iexact HS1
            ipureintro; exact View.read_writes_of_cover _ _ _ _ _ (covers1_C c _ _ _ _ _ _ _ _ _ _ _ _ _ _ _ _ _ _ _ _ _ _ _ _ _ _ _).2.2.2.2
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (covers1_C c _ _ _ _ _ _ _ _ _ _ _ _ _ _ _ _ _ _ _ _ _ _ _ _ _ _ _).1
      isplitl [H5]
      · unfold owns; iexists _; isplitr
        swap; · iexact H5
        ipureintro; exact View.read_writes_of_cover _ _ _ _ _ (covers1_C c _ _ _ _ _ _ _ _ _ _ _ _ _ _ _ _ _ _ _ _ _ _ _ _ _ _ _).2.1
      unfold owns; iexists _; isplitr
      swap; · iexact H6
      ipureintro; exact View.read_writes_of_cover _ _ _ _ _ (covers1_C c _ _ _ _ _ _ _ _ _ _ _ _ _ _ _ _ _ _ _ _ _ _ _ _ _ _ _).2.2.1
    · rw [Dat.leavesExact_idle (dat1 V c) 5 t (idle1 t 5 (by decide) fun h => h1 ((hcond1_1 t).mp h)).1 (idle1 t 5 (by decide) fun h => h1 ((hcond1_1 t).mp h)).2]
      rw [Dat.leavesExact_idle (dat1 V c) 6 t (idle1 t 6 (by decide) fun h => h1 ((hcond1_1 t).mp h)).1 (idle1 t 6 (by decide) fun h => h1 ((hcond1_1 t).mp h)).2]
      rw [outsAt1_B V c t h0 h1]
      unfold outs1_B outsOf; (try dsimp only)
      have hz : t.val ≠ 0 := by omega
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (covers1_B c _ _ _ _ _ _ _ _ _ _ _ _ _ _ _ _ _ _ _ _ _ _ _ _ _ _ _).2.1
            unfold owns; iexists _; isplitr
            swap; · iexact HS1
            ipureintro; exact View.read_writes_of_cover _ _ _ _ _ (covers1_B c _ _ _ _ _ _ _ _ _ _ _ _ _ _ _ _ _ _ _ _ _ _ _ _ _ _ _).2.2
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (covers1_B c _ _ _ _ _ _ _ _ _ _ _ _ _ _ _ _ _ _ _ _ _ _ _ _ _ _ _).1
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ Pipeline.scopedRest (Ix := Unit) (Name := ℕ) (U := UR sig nD τ) (Lvl := ℕ) spec1 c) ⊢ (dat1 V c).Φ 0 := by
  rw [show (dat1 V c).Φ 0 = PhiS1 V c 0 (Nat.zero_le _) from rfl, PhiS1_zero V c 0 _ rfl]; unfold Pipeline.ΦA
  iintro ⟨Hp, Hr⟩
  isplitl [Hr]; · iexact Hr
  iexact Hp

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout1 (c : Dev nD) : (dat1 V c).Φ (Fin.last cfg1.N) ⊢ iprop((∃ r, prngReg c r) ∗ Pipeline.scopedRest (Ix := Unit) (Name := ℕ) (U := UR sig nD τ) (Lvl := ℕ) spec1 c) := by
  refine (Phi_out1 V c _ (by rw [Fin.val_last]; have : cfg1.N = 5 := N_1; omega)).trans ?_
  unfold Pipeline.ΦA
  iintro ⟨Hr, Hp⟩
  isplitl [Hp]; · iexact Hp
  iexact Hr

end Cert.KernelIdeal.Hand

end
-- ==== Proof.KIR2.lean ====
import proofs.«115762_j58188216926998_1_alg».proof.Proof.Gen.KernelIdeal.Launch
import proofs.«115762_j58188216926998_1_alg».proof.Proof.Gen.KernelIdeal.Skeleton
import proofs.«115762_j58188216926998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0

-- a block of rows of the result: u normalised by the column mean and variance, scaled and shifted, times U2, plus bu2 and the residual
def out2_8 (x0 : Vec F S4000x128 .f32) (x1 : Vec F S4000x128 .f32) (x2 : Vec F S1x128 .f32) (x3 : Vec F S1x128 .f32)
    (x4 : Vec F S1x128 .f32) (x5 : Vec F S1x128 .f32) (x6 : Vec F S128x128 .f32) (x7 : Vec F S1x128 .f32) : Vec F S4000x128 .f32 :=
  View.canon [⟨r2_0, k2_pay1 (View.ld x0 r2_0) (View.ld x2 r2_1) (View.ld x3 r2_1) (View.ld x4 r2_1) (View.ld x5 r2_1)
    (View.ld x6 r2_2) (View.ld x7 r2_1) (View.ld x1 r2_0)⟩]

theorem cover2_8 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

set_option maxHeartbeats 1000000 in
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S4000x128 .f32) (harg9 : arg9.IsWhole)
    (x0 : Vec F S4000x128 .f32) (x1 : Vec F S4000x128 .f32) (x2 : Vec F S1x128 .f32) (x3 : Vec F S1x128 .f32) (x4 : Vec F S1x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__update_phase2_kernel i arg1 harg1 arg2 harg2 arg3 harg3 arg4 harg4 arg5 harg5 arg6 harg6 arg7 harg7 arg8 harg8 arg9 harg9) K := by
  simp only [cc2__update_phase2_kernel_eq_skeleton]; unfold cc2__update_phase2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
import proofs.«115762_j58188216926998_1_alg».proof.Proof.KIR0
import proofs.«115762_j58188216926998_1_alg».proof.Proof.KIR1
import proofs.«115762_j58188216926998_1_alg».proof.Proof.KIR2
import proofs.«115762_j58188216926998_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

theorem ΦA_in {n k : ℕ} (spec : Fin n → Pipeline.WinSpec sig k) (c : Dev nD) :
    iprop((∃ r, prngReg c r) ∗ Pipeline.scopedRest (Ix := Unit) (Name := ℕ) (U := UR sig nD τ) (Lvl := ℕ) (Val := Elt F) spec c)
      ⊢ (Pipeline.ΦA spec c : sProp 𝕄) := by
  unfold Pipeline.ΦA
  iintro ⟨Hp, Hr⟩
  isplitl [Hr]; · iexact Hr
  iexact Hp

theorem ΦA_out {n k : ℕ} (spec : Fin n → Pipeline.WinSpec sig k) (c : Dev nD) :
    (Pipeline.ΦA spec c : sProp 𝕄)
      ⊢ iprop((∃ r, prngReg c r) ∗ Pipeline.scopedRest (Ix := Unit) (Name := ℕ) (U := UR sig nD τ) (Lvl := ℕ) (Val := Elt F) spec c) := by
  unfold Pipeline.ΦA
  iintro ⟨Hr, Hp⟩
  isplitl [Hp]; · iexact Hp
  iexact Hr

-- one kernel call as a step between the contents of all arrays before it and after it: only its own output arrays change
set_option backward.isDefEq.respectTransparency.types false in
def mkReg (p : Fin 3) (lf : Pipeline.LaunchFacts (nD := nD) (τ := τ) cfgs p) (Wi Wo : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c t, (pdats m ρ p c).recorded t = Set.univ)
    (hA : ∀ c w, (pdats m ρ p c).A w = Wi c (Proc.devRef .tc (Pipeline.arrRef (Pipeline.pin (pcfgs (F := F)) adm p).spec w)))
    (hF : ∀ c w, (pdats m ρ p c).arrAt w (Pipeline.pin (pcfgs (F := F)) adm p).N = Wo c (Proc.devRef .tc (Pipeline.arrRef (Pipeline.pin (pcfgs (F := F)) adm p).spec w)))
    (hrest : ∀ c (b : Ref sig .tc), (∀ w, Pipeline.arrRef (Pipeline.pin (pcfgs (F := F)) adm p).spec w ≠ b) → Wo c (Proc.devRef .tc b) = Wi c (Proc.devRef .tc b))
    (hin : ∀ c, iprop((∃ r, prngReg c r) ∗ Pipeline.scopedRest (Ix := Unit) (Name := ℕ) (U := UR sig nD τ) (Lvl := ℕ) (Val := Elt F) (Pipeline.pin (pcfgs (F := F)) adm p).spec c) ⊢ (pdats m ρ p c).Φ 0)
    (hout : ∀ c, (pdats m ρ p c).Φ (Fin.last _) ⊢ iprop((∃ r, prngReg c r) ∗ Pipeline.scopedRest (Ix := Unit) (Name := ℕ) (U := UR sig nD τ) (Lvl := ℕ) (Val := Elt F) (Pipeline.pin (pcfgs (F := F)) adm p).spec c)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c (Proc.devRef .tc b))
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c 0 ▸ trivial)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c (Proc.devRef .tc b)) (fun b => Wo c (Proc.devRef .tc b)) ((pdats m ρ p c).arrAt · (Pipeline.pin (pcfgs (F := F)) adm p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

set_option backward.isDefEq.respectTransparency.types false in
abbrev reg0 := mkReg m ρ 0 launch0 (W1 m ρ) (W2 m ρ) (body_obligation0 (V1 m ρ)) (fun _ _ => rfl) (fun _ _ => rfl) (fun _ _ => rfl) (fun _ _ => rfl)
  (fun c w => (W2_arr m ρ c w).symm) (W2_of_ne m ρ) (ΦA_in spec0) (ΦA_out spec0)
set_option backward.isDefEq.respectTransparency.types false in
abbrev reg1 := mkReg m ρ 1 launch1 (W3 m ρ) (W4 m ρ) (body_obligation1 (V3 m ρ)) (fun _ _ => rfl) (fun _ _ => rfl) (fun _ _ => rfl) (fun _ _ => rfl)
  (fun c w => (W4_arr m ρ c w).symm) (W4_of_ne m ρ) (hin1 (V3 m ρ)) (hout1 (V3 m ρ))
set_option backward.isDefEq.respectTransparency.types false in
abbrev reg2 := mkReg m ρ 2 launch2 (W4 m ρ) (W5 m ρ) (body_obligation2 (V4 m ρ)) (fun _ _ => rfl) (fun _ _ => rfl) (fun _ _ => rfl) (fun _ _ => rfl)
  (fun c w => (W5_arr m ρ c w).symm) (W5_of_ne m ρ) (ΦA_in spec2) (ΦA_out spec2)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show iprop(StableHlo.held (c : Thread nD τ) (Pipeline.ucRefs τ sig) (W5 m ρ c) ∗ R c)
        ⊢ (iprop(Tₙ m ρ c ∗ ∃ W, owes (c : Thread nD τ) (0 : CellTallies nD τ sig Unit) W) : sProp 𝕄) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))

-- an array that no host operation writes and that every kernel call at most reads ends as it started
theorem W5_keep (c : Dev nD) (r : Ref sig .tc)
    (h : r ∉ hostOps0_W ∧ r ∉ hostOps1_W
      ∧ ((∀ w, Pipeline.arrRef spec0 w ≠ r) ∨ ∃ w, (cfg0.win w).isOut = false ∧ Pipeline.arrRef spec0 w = r)
      ∧ ((∀ w, Pipeline.arrRef spec1 w ≠ r) ∨ ∃ w, (cfg1.win w).isOut = false ∧ Pipeline.arrRef spec1 w = r)
      ∧ ((∀ w, Pipeline.arrRef spec2 w ≠ r) ∨ ∃ w, (cfg2.win w).isOut = false ∧ Pipeline.arrRef spec2 w = r)) :
    W5 m ρ c (Proc.devRef .tc r) = m ((c : Thread nD τ).loc r) := by
  obtain ⟨h0, h1, a0, a1, a2⟩ := h
  have e2 : W2 m ρ c (Proc.devRef .tc r) = W1 m ρ c (Proc.devRef .tc r) :=
    a0.elim (W2_of_ne m ρ c r) fun ⟨w, hw, e⟩ => e ▸ W2_in m ρ c w hw
  have e4 : W4 m ρ c (Proc.devRef .tc r) = W3 m ρ c (Proc.devRef .tc r) :=
    a1.elim (W4_of_ne m ρ c r) fun ⟨w, hw, e⟩ => e ▸ W4_in m ρ c w hw
  have e5 : W5 m ρ c (Proc.devRef .tc r) = W4 m ρ c (Proc.devRef .tc r) :=
    a2.elim (W5_of_ne m ρ c r) fun ⟨w, hw, e⟩ => e ▸ W5_in m ρ c w hw
  exact e5.trans (e4.trans ((W3_of m ρ c r h1).trans (e2.trans (W1_of m ρ c r h0))))

theorem kept (c : Dev nD) (r : Ref sig .tc) (hr : ¬ (Proc.devRef .tc r : DevRef τ sig).isScoped)
    (h : r ∉ hostOps0_W ∧ r ∉ hostOps1_W
      ∧ ((∀ w, Pipeline.arrRef spec0 w ≠ r) ∨ ∃ w, (cfg0.win w).isOut = false ∧ Pipeline.arrRef spec0 w = r)
      ∧ ((∀ w, Pipeline.arrRef spec1 w ≠ r) ∨ ∃ w, (cfg1.win w).isOut = false ∧ Pipeline.arrRef spec1 w = r)
      ∧ ((∀ w, Pipeline.arrRef spec2 w ≠ r) ∨ ∃ w, (cfg2.win w).isOut = false ∧ Pipeline.arrRef spec2 w = r))
    {s : (ℓ : Loc nD τ sig) → Buf (Elt F) ℓ} (hs : ∀ b ∈ Pipeline.ucRefs τ sig, s (((c : Thread nD τ)).1, b) = W5 m ρ c b) :
    s ((c.tc : Thread nD τ).loc r) = m ((c.tc : Thread nD τ).loc r) :=
  (hs _ (mem_uc r hr)).trans (W5_keep m ρ c r h)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr (a b : Nat) : Type := (⟨2, ![a, b]⟩ : Shape).Idx → EReal

abbrev zeroLit : EReal := Ideal.ofBits .f32 0x00000000#32
abbrev epsLit : EReal := Ideal.ofBits .f32 0x3727C5AC#32
abbrev nLit : EReal := Ideal.ofBits .f32 0x469C4000#32

section Edge
variable (fs fd d : Arr 320000 128) (W1 : Arr 384 128) (b1 : Arr 1 128) (W2 : Arr 128 128) (b2 : Arr 1 128)
  (ws : Arr 1 128) (bs : Arr 1 1)

def hid (e : Fin 320000) (j : Fin 128) : EReal :=
  max ((((∑ k : Fin 128, fs (ix2 e k) * W1 (ix2 (⟨k.val, by omega⟩ : Fin 384) j))
        + ∑ k : Fin 128, fd (ix2 e k) * W1 (ix2 (⟨128 + k.val, by omega⟩ : Fin 384) j))
        + ∑ k : Fin 128, d (ix2 e k) * W1 (ix2 (⟨256 + k.val, by omega⟩ : Fin 384) j))
        + b1 (ix2 0 j)) zeroLit

def pre (e : Fin 320000) (j : Fin 128) : EReal :=
  (∑ k : Fin 128, hid fs fd d W1 b1 e k * W2 (ix2 k j)) + b2 (ix2 0 j)

def msg (e : Fin 320000) (j : Fin 128) : EReal :=
  pre fs fd d W1 b1 W2 b2 e j * Ideal.logistic (pre fs fd d W1 b1 W2 b2 e j)

def gate (e : Fin 320000) : EReal :=
  Ideal.logistic ((∑ k : Fin 128, msg fs fd d W1 b1 W2 b2 e k * ws (ix2 0 k)) + bs (ix2 0 0))

def G_dnew : Arr 320000 128 := fun i => d i + msg fs fd d W1 b1 W2 b2 (i 0) (i 1)

def G_mg : Arr 320000 128 := fun i => msg fs fd d W1 b1 W2 b2 (i 0) (i 1) * gate fs fd d W1 b1 W2 b2 ws bs (i 0)
end Edge

section Node
variable (feat msum : Arr 20000 128) (U1 : Arr 128 128) (bu1 : Arr 1 128)

def G_u : Arr 20000 128 := fun i =>
  max ((∑ k : Fin 128, (feat (ix2 (i 0) k) + msum (ix2 (i 0) k)) * U1 (ix2 k (i 1))) + bu1 (ix2 0 (i 1))) zeroLit
end Node

section Stats
variable (u : Arr 20000 128)

def G_mu : Arr 1 128 := fun i => Ideal.div (∑ n : Fin 20000, u (ix2 n (i 1))) nLit

def G_var : Arr 1 128 := fun i =>
  Ideal.div (∑ n : Fin 20000, u (ix2 n (i 1)) * u (ix2 n (i 1))) nLit - G_mu u i * G_mu u i
end Stats

section Out
variable (u feat : Arr 20000 128) (mu var gamma beta : Arr 1 128) (U2 : Arr 128 128) (bu2 : Arr 1 128)

def G_out : Arr 20000 128 := fun i =>
  ((∑ k : Fin 128, ((((u (ix2 (i 0) k) - mu (ix2 0 k)) * Ideal.rsqrt (var (ix2 0 k) + epsLit)) * gamma (ix2 0 k))
      + beta (ix2 0 k)) * U2 (ix2 k (i 1))) + bu2 (ix2 0 (i 1))) + feat (ix2 (i 0) (i 1))
end Out

section Rows

def row (v : (⟨1, ![128]⟩ : Shape).Idx → EReal) : Arr 1 128 := fun i => v (ix1 (i 1))

def colRow (v : Arr 128 1) : Arr 1 128 := fun i => v (ix2 (i 1) 0)

def cell (v : (⟨1, ![1]⟩ : Shape).Idx → EReal) : Arr 1 1 := fun _ => v (ix1 0)
end Rows

end Cert.Spec

end
-- ==== Proof.ValHost.lean ====
import proofs.«115762_j58188216926998_1_alg».proof.Proof.Gen.KernelIdeal.Launch
import proofs.«115762_j58188216926998_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen
open Idealize.ShloMosaic Idealize.ShloMosaic.TcCoe Idealize.ShloMosaic.StableHlo Idealize.ShloMosaic.ValueIdx

section Generic
variable {F : FTy → Type} [FloatOps F] (W : Valuation τ sig (Elt F))

def idxOf (a : (⟨S320000, .i32⟩ : BufTy).Contents (Elt F)) : (⟨S320000x1, .i32⟩ : BufTy).Contents (Elt F) :=
  (broadcastInDim S320000x1 ![0] bcast_S320000_S320000x1_0 : (⟨S320000, .i32⟩ : BufTy).Contents (Elt F) → (⟨S320000x1, .i32⟩ : BufTy).Contents (Elt F))
    ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
      ((cmpi .slt : (⟨S320000, .i32⟩ : BufTy).Contents (Elt F) → (⟨S320000, .i32⟩ : BufTy).Contents (Elt F) → (⟨S320000, .i1⟩ : BufTy).Contents (Elt F)) a
        ((broadcastInDim S320000 ![] bcast_S_S320000 : (⟨S_, .i32⟩ : BufTy).Contents (Elt F) → (⟨S320000, .i32⟩ : BufTy).Contents (Elt F)) (constantI S_ 32 0#32)))
      ((addi : (⟨S320000, .i32⟩ : BufTy).Contents (Elt F) → (⟨S320000, .i32⟩ : BufTy).Contents (Elt F) → (⟨S320000, .i32⟩ : BufTy).Contents (Elt F)) a
        ((broadcastInDim S320000 ![] bcast_S_S320000 : (⟨S_, .i32⟩ : BufTy).Contents (Elt F) → (⟨S320000, .i32⟩ : BufTy).Contents (Elt F)) (constantI S_ 32 20000#32)))
      a)

theorem after0_v6 : StableHlo.after (hostOps0 (F := F)) W (Proc.devRef .tc main_v6)
    = Host.gather gather_S20000x128_S320000x1_S320000x128_1_0_n_n_0_1_1128 (W (Proc.devRef .tc main_arg0)) (idxOf (W (Proc.devRef .tc main_arg2))) := by
  dsimp only [hostOps0]
  after_results
  rfl

theorem after0_v13 : StableHlo.after (hostOps0 (F := F)) W (Proc.devRef .tc main_v13)
    = Host.gather gather_S20000x128_S320000x1_S320000x128_1_0_n_n_0_1_1128 (W (Proc.devRef .tc main_arg0)) (idxOf (W (Proc.devRef .tc main_arg3))) := by
  dsimp only [hostOps0]
  after_results
  rfl

theorem after0_v14 : StableHlo.after (hostOps0 (F := F)) W (Proc.devRef .tc main_v14)
    = (shapeCast S1x128 (W (Proc.devRef .tc main_arg5) : (⟨S128, .f32⟩ : BufTy).Contents (Elt F)) shapeCasts_S128_S1x128 : (⟨S1x128, .f32⟩ : BufTy).Contents (Elt F)) := by
  dsimp only [hostOps0]
  after_results
  rfl

theorem after0_v15 : StableHlo.after (hostOps0 (F := F)) W (Proc.devRef .tc main_v15)
    = (shapeCast S1x128 (W (Proc.devRef .tc main_arg7) : (⟨S128, .f32⟩ : BufTy).Contents (Elt F)) shapeCasts_S128_S1x128 : (⟨S1x128, .f32⟩ : BufTy).Contents (Elt F)) := by
  dsimp only [hostOps0]
  after_results
  rfl

theorem after0_v16 : StableHlo.after (hostOps0 (F := F)) W (Proc.devRef .tc main_v16)
    = (shapeCast S1x1 (W (Proc.devRef .tc main_arg9) : (⟨S1, .f32⟩ : BufTy).Contents (Elt F)) shapeCasts_S1_S1x1 : (⟨S1x1, .f32⟩ : BufTy).Contents (Elt F)) := by
  dsimp only [hostOps0]
  after_results
  rfl

theorem after0_v17 : StableHlo.after (hostOps0 (F := F)) W (Proc.devRef .tc main_v17)
    = (shapeCast S1x128 (W (Proc.devRef .tc main_arg8) : (⟨S128x1, .f32⟩ : BufTy).Contents (Elt F)) shapeCasts_S128x1_S1x128 : (⟨S1x128, .f32⟩ : BufTy).Contents (Elt F)) := by
  dsimp only [hostOps0]
  after_results
  rfl

theorem after0_v18 : StableHlo.after (hostOps0 (F := F)) W (Proc.devRef .tc main_v18)
    = (shapeCast S1x128 (W (Proc.devRef .tc main_arg11) : (⟨S128, .f32⟩ : BufTy).Contents (Elt F)) shapeCasts_S128_S1x128 : (⟨S1x128, .f32⟩ : BufTy).Contents (Elt F)) := by
  dsimp only [hostOps0]
  after_results
  rfl

theorem after0_v19 : StableHlo.after (hostOps0 (F := F)) W (Proc.devRef .tc main_v19)
    = (shapeCast S1x128 (W (Proc.devRef .tc main_arg15) : (⟨S128, .f32⟩ : BufTy).Contents (Elt F)) shapeCasts_S128_S1x128 : (⟨S1x128, .f32⟩ : BufTy).Contents (Elt F)) := by
  dsimp only [hostOps0]
  after_results
  rfl

theorem after0_v20 : StableHlo.after (hostOps0 (F := F)) W (Proc.devRef .tc main_v20)
    = (shapeCast S1x128 (W (Proc.devRef .tc main_arg12) : (⟨S128, .f32⟩ : BufTy).Contents (Elt F)) shapeCasts_S128_S1x128 : (⟨S1x128, .f32⟩ : BufTy).Contents (Elt F)) := by
  dsimp only [hostOps0]
  after_results
  rfl

theorem after0_v21 : StableHlo.after (hostOps0 (F := F)) W (Proc.devRef .tc main_v21)
    = (shapeCast S1x128 (W (Proc.devRef .tc main_arg13) : (⟨S128, .f32⟩ : BufTy).Contents (Elt F)) shapeCasts_S128_S1x128 : (⟨S1x128, .f32⟩ : BufTy).Contents (Elt F)) := by
  dsimp only [hostOps0]
  after_results
  rfl

theorem after1_v25 : StableHlo.after (hostOps1 (F := F)) W (Proc.devRef .tc main_v25)
    = Host.scatterAdd scatter_S20000x128_S320000x1_S320000x128_1_0_0_1
        ((broadcastInDim S20000x128 ![] bcast_S_S20000x128 : (⟨S_, .f32⟩ : BufTy).Contents (Elt F) → (⟨S20000x128, .f32⟩ : BufTy).Contents (Elt F)) (constant S_ .f32 0x00000000#32))
        ((broadcastInDim S320000x1 ![0] bcast_S320000_S320000x1_0 : (⟨S320000, .i32⟩ : BufTy).Contents (Elt F) → (⟨S320000x1, .i32⟩ : BufTy).Contents (Elt F)) (W (Proc.devRef .tc main_arg3)))
        (W (Proc.devRef .tc main_v22_1)) := by
  dsimp only [hostOps1]
  after_results

end Generic

section Exact

theorem reshape_row (a : (⟨S128, .f32⟩ : BufTy).Contents (Elt Ideal)) :
    (shapeCast S1x128 a shapeCasts_S128_S1x128 : (⟨S1x128, .f32⟩ : BufTy).Contents (Elt Ideal)) = Cert.Spec.row a := by
  funext j
  obtain ⟨u, k, rfl⟩ : ∃ (u : Fin 1) (k : Fin 128), j = ix2 u k := ⟨j 0, j 1, eq_ix2 j⟩
  exact shapeCast_a_1a_apply a shapeCasts_S128_S1x128 u k

theorem reshape_colRow (a : (⟨S128x1, .f32⟩ : BufTy).Contents (Elt Ideal)) :
    (shapeCast S1x128 a shapeCasts_S128x1_S1x128 : (⟨S1x128, .f32⟩ : BufTy).Contents (Elt Ideal)) = Cert.Spec.colRow a := by
  funext j
  obtain ⟨u, k, rfl⟩ : ∃ (u : Fin 1) (k : Fin 128), j = ix2 u k := ⟨j 0, j 1, eq_ix2 j⟩
  exact shapeCast_apply a shapeCasts_S128x1_S1x128 (ix2 u k) (ix2 k (0 : Fin 1)) (by
    have hu : u.val = 0 := by omega
    rw [Shape.rowMajor_val_two, Shape.rowMajor_val_two]
    show k.val * 1 + 0 = u.val * 128 + k.val
    rw [hu, Nat.zero_mul, Nat.zero_add, Nat.mul_one, Nat.add_zero])

theorem reshape_cell (a : (⟨S1, .f32⟩ : BufTy).Contents (Elt Ideal)) :
    (shapeCast S1x1 a shapeCasts_S1_S1x1 : (⟨S1x1, .f32⟩ : BufTy).Contents (Elt Ideal)) = Cert.Spec.cell a := by
  funext j
  obtain ⟨u, k, rfl⟩ : ∃ (u : Fin 1) (k : Fin 1), j = ix2 u k := ⟨j 0, j 1, eq_ix2 j⟩
  obtain rfl : k = 0 := Subsingleton.elim _ _
  exact shapeCast_a_1a_apply a shapeCasts_S1_S1x1 u 0

end Exact

end Cert.KernelIdeal.Val

end
-- ==== Proof.ValR2.lean ====
import proofs.«115762_j58188216926998_1_alg».proof.Proof.KIR2
import proofs.«115762_j58188216926998_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

theorem lhsU2_0 (j : S4000x128.Idx) (k : dot_S4000x128_S128x128_S4000x128_1_0_0_1_n_n.contr.Idx) : (dot_S4000x128_S128x128_S4000x128_1_0_0_1_n_n.lhsIdx j k 0 : ℕ) = j 0 := by
  simp [DotDims.lhsIdx, dot_S4000x128_S128x128_S4000x128_1_0_0_1_n_n]; rfl
theorem rhsU2_1 (j : S4000x128.Idx) (k : dot_S4000x128_S128x128_S4000x128_1_0_0_1_n_n.contr.Idx) : (dot_S4000x128_S128x128_S4000x128_1_0_0_1_n_n.rhsIdx j k 1 : ℕ) = j 1 := by
  simp [DotDims.rhsIdx, dot_S4000x128_S128x128_S4000x128_1_0_0_1_n_n]; rfl

-- The product of a 4000×128 block with a 128×128 matrix into the zero matrix, at an index: the sum over the contracted coordinate.
theorem matmulU2_apply (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  refine (Ideal.matmul_constant_zero_apply dot_S4000x128_S128x128_S4000x128_1_0_0_1_n_n none A B (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  congr 1
  · exact congrArg A (Shape.idx_ext₂ (lhsU2_0 _ _) ((dot_S4000x128_S128x128_S4000x128_1_0_0_1_n_n.lhsIdx_val_of_single rfl _ _).trans hk))
  · exact congrArg B (Shape.idx_ext₂ ((dot_S4000x128_S128x128_S4000x128_1_0_0_1_n_n.rhsIdx_val_of_single rfl _ _).trans hk) (rhsU2_1 _ _))

theorem pay_apply (v0 : Vec Ideal S4000x128 .f32) (v2 v4 v6 v8 : Vec Ideal S1x128 .f32) (v21 : Vec Ideal S128x128 .f32)
    (v22 : Vec Ideal S1x128 .f32) (v29 : Vec Ideal S4000x128 .f32) (p : Fin 4000) (q : Fin 128) :
    k2_pay1 v0 v2 v4 v6 v8 v21 v22 v29 (ix2 p q)
      = ((∑ k : Fin 128, ((((v0 (ix2 p k) - v2 (ix2 0 k)) * Ideal.rsqrt (v4 (ix2 0 k) + Cert.Spec.epsLit)) * v6 (ix2 0 k))
          + v8 (ix2 0 k)) * v21 (ix2 k q)) + v22 (ix2 0 q)) + v29 (ix2 p q) := by
  unfold k2_pay1
  simp only [shapeCast_self]
  refine congrArg (· + v29 (ix2 p q)) ?_
  refine congrArg₂ (· + ·) ?_ (broadcastTo_1b_ab_apply v22 _ p q)
  refine (matmulU2_apply _ _ p q).trans ?_
  refine Finset.sum_congr rfl fun k _ => ?_
  refine congrArg (· * v21 (ix2 k q)) ?_
  show (((v0 (ix2 p k) - broadcastTo S4000x128 v2 _ (ix2 p k)) * broadcastTo S4000x128 _ _ (ix2 p k)) * broadcastTo S4000x128 v6 _ (ix2 p k)) + broadcastTo S4000x128 v8 _ (ix2 p k) = _
  rw [broadcastTo_1b_ab_apply v2 _ p k, broadcastTo_1b_ab_apply v6 _ p k, broadcastTo_1b_ab_apply v8 _ p k, broadcastTo_1b_ab_apply _ _ p k]
  rfl

variable (V : (c : Dev nD) → (b : Ref sig .tc) → Buf (Elt Ideal) ((c : Thread nD τ).loc b))

theorem hz : (![0, 0] : Fin 2 → Nat) = fun _ => 0 := funext fun a => by fin_cases a <;> rfl

theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_8.index t (0 : Fin 2) = t.val ∧ win2_8.index t (1 : Fin 2) = 0 :=
  (by decide +kernel : ∀ t : Fin grid2.N, _)

theorem idx_whole : ∀ (t : Fin cfg2.N) (a : Fin 2), win2_2.index t a = 0 ∧ win2_3.index t a = 0 ∧ win2_4.index t a = 0
    ∧ win2_5.index t a = 0 ∧ win2_6.index t a = 0 ∧ win2_7.index t a = 0 :=
  (by decide +kernel : ∀ (t : Fin grid2.N) (a : Fin 2), _)

theorem row_lt (t : Fin cfg2.N) (p : Fin 4000) : 4000 * t.val + p.val < 20000 := by
  have ht : t.val < 5 := Nat.lt_of_lt_of_eq t.isLt N_2
  have := p.isLt; omega

theorem iblk0_apply (c : Dev nD) (t : Fin cfg2.N) (p : Fin 4000) (q : Fin 128) :
    (iblk2 V c 0 t : Vec Ideal S4000x128 .f32) (ix2 p q) = (V c main_v26_0 : Cert.Spec.Arr 20000 128) (ix2 ⟨4000 * t.val + p.val, row_lt t p⟩ q) := by
  obtain ⟨e0, e1, e2, e3, -⟩ := idx_rows t
  show V c main_v26_0 (((cfg2.win 0).blk t).view.emb (ix2 p q)) = _
  refine congrArg _ (Shape.idx_ext₂ ?_ ?_)
  · show win2_0.index t (0 : Fin 2) * 4000 + 1 * p.val = 4000 * t.val + p.val
    omega
  · show win2_0.index t (1 : Fin 2) * 128 + 1 * q.val = q.val
    omega

theorem iblk1_apply (c : Dev nD) (t : Fin cfg2.N) (p : Fin 4000) (q : Fin 128) :
    (iblk2 V c 1 t : Vec Ideal S4000x128 .f32) (ix2 p q) = (V c main_arg0 : Cert.Spec.Arr 20000 128) (ix2 ⟨4000 * t.val + p.val, row_lt t p⟩ q) := by
  obtain ⟨-, -, e0, e1, -⟩ := idx_rows t
  show V c main_arg0 (((cfg2.win 1).blk t).view.emb (ix2 p q)) = _
  refine congrArg _ (Shape.idx_ext₂ ?_ ?_)
  · show win2_1.index t (0 : Fin 2) * 4000 + 1 * p.val = 4000 * t.val + p.val
    omega
  · show win2_1.index t (1 : Fin 2) * 128 + 1 * q.val = q.val
    omega

theorem iblk2_eq (c : Dev nD) (t : Fin cfg2.N) : (iblk2 V c 2 t : Vec Ideal S1x128 .f32) = (V c main_v26_1 : Cert.Spec.Arr 1 128) :=
  funext fun y => congrArg (V c main_v26_1) (funext fun a => Fin.ext (win2_2.rect_emb_val_of_index_zero t a (idx_whole t a).1 y))

theorem iblk3_eq (c : Dev nD) (t : Fin cfg2.N) : (iblk2 V c 3 t : Vec Ideal S1x128 .f32) = (V c main_v26_2 : Cert.Spec.Arr 1 128) :=
  funext fun y => congrArg (V c main_v26_2) (funext fun a => Fin.ext (win2_3.rect_emb_val_of_index_zero t a (idx_whole t a).2.1 y))

theorem iblk4_eq (c : Dev nD) (t : Fin cfg2.N) : (iblk2 V c 4 t : Vec Ideal S1x128 .f32) = (V c main_v20 : Cert.Spec.Arr 1 128) :=
  funext fun y => congrArg (V c main_v20) (funext fun a => Fin.ext (win2_4.rect_emb_val_of_index_zero t a (idx_whole t a).2.2.1 y))

theorem iblk5_eq (c : Dev nD) (t : Fin cfg2.N) : (iblk2 V c 5 t : Vec Ideal S1x128 .f32) = (V c main_v21 : Cert.Spec.Arr 1 128) :=
  funext fun y => congrArg (V c main_v21) (funext fun a => Fin.ext (win2_5.rect_emb_val_of_index_zero t a (idx_whole t a).2.2.2.1 y))

theorem iblk6_eq (c : Dev nD) (t : Fin cfg2.N) : (iblk2 V c 6 t : Vec Ideal S128x128 .f32) = (V c main_arg14 : Cert.Spec.Arr 128 128) :=
  funext fun y => congrArg (V c main_arg14) (funext fun a => Fin.ext (win2_6.rect_emb_val_of_index_zero t a (idx_whole t a).2.2.2.2.1 y))

theorem iblk7_eq (c : Dev nD) (t : Fin cfg2.N) : (iblk2 V c 7 t : Vec Ideal S1x128 .f32) = (V c main_v19 : Cert.Spec.Arr 1 128) :=
  funext fun y => congrArg (V c main_v19) (funext fun a => Fin.ext (win2_7.rect_emb_val_of_index_zero t a (idx_whole t a).2.2.2.2.2 y))

abbrev Gout (c : Dev nD) : Cert.Spec.Arr 20000 128 :=
  Cert.Spec.G_out (V c main_v26_0) (V c main_arg0) (V c main_v26_1) (V c main_v26_2) (V c main_v20) (V c main_v21) (V c main_arg14) (V c main_v19)

theorem pay_blocks (c : Dev nD) (t : Fin cfg2.N) (p : Fin 4000) (q : Fin 128) :
    k2_pay1 (F := Ideal) (iblk2 V c 0 t) (iblk2 V c 2 t) (iblk2 V c 3 t) (iblk2 V c 4 t) (iblk2 V c 5 t) (iblk2 V c 6 t) (iblk2 V c 7 t) (iblk2 V c 1 t) (ix2 p q)
      = Gout V c (ix2 ⟨4000 * t.val + p.val, row_lt t p⟩ q) := by
  refine (pay_apply _ _ _ _ _ _ _ _ p q).trans ?_
  rw [iblk1_apply V c t p q, iblk2_eq V c t, iblk3_eq V c t, iblk4_eq V c t, iblk5_eq V c t, iblk6_eq V c t, iblk7_eq V c t]
  simp only [iblk0_apply V c t]
  rfl

theorem flushed8_eq (c : Dev nD) (t : Fin cfg2.N) :
    (dat2 (F := Ideal) V c).flushed 8 t = ((cfg2.win 8).blk t).view.read (Elt Ideal) (Gout V c) := by
  obtain ⟨-, -, -, -, e0, e1⟩ := idx_rows t
  show (cfg2.win 8).cut (grid2.coords t) ((dat2 V c).after 8 t) = _
  rw [after2_8]
  unfold out2_8
  rw [View.canon_unit_zero hz]
  simp only [View.ld_unit_zero (S := S4000x128) hz, View.ld_unit_zero (S := S1x128) hz, View.ld_unit_zero (S := S128x128) hz]
  refine funext fun (j : S4000x128.Idx) => ?_
  show k2_pay1 (F := Ideal) (iblk2 V c 0 t) (iblk2 V c 2 t) (iblk2 V c 3 t) (iblk2 V c 4 t) (iblk2 V c 5 t) (iblk2 V c 6 t) (iblk2 V c 7 t) (iblk2 V c 1 t) j
    = Gout V c (((cfg2.win 8).blk t).view.emb j)
  rw [eq_ix2 j]
  refine (pay_blocks V c t (j 0) (j 1)).trans (congrArg (Gout V c) (Shape.idx_ext₂ ?_ ?_))
  · show 4000 * t.val + (j 0).val = win2_8.index t (0 : Fin 2) * 4000 + 1 * (j 0).val
    omega
  · show (j 1).val = win2_8.index t (1 : Fin 2) * 128 + 1 * (j 1).val
    omega

-- Row `r` lies in the block of point `r / 4000`.
theorem cover8 (i : S20000x128.Idx) : ∃ t : Fin cfg2.N, (cfg2.win 8).flush t = true ∧ i ∈ ((cfg2.win 8).blk t).view.set := by
  have hi0 : (i 0).val < 20000 := (i 0).isLt
  have hi1 : (i 1).val < 128 := (i 1).isLt
  obtain ⟨t, ht⟩ : ∃ t : Fin cfg2.N, t.val = (i 0).val / 4000 := ⟨⟨_, by show _ < grid2.N; rw [N_2]; omega⟩, rfl⟩
  obtain ⟨-, -, -, -, e0, e1⟩ := idx_rows t
  refine ⟨t, flush2_8 _, ?_⟩
  show i ∈ ((View.whole main_v27).slice (win2_8.rect t)).set
  rw [View.set_slice_whole, Rect.mem_set_unit]
  intro a
  match a with
  | ⟨0, _⟩ =>
    show win2_8.index t (0 : Fin 2) * 4000 ≤ (i 0).val ∧ (i 0).val < win2_8.index t (0 : Fin 2) * 4000 + 4000
    omega
  | ⟨1, _⟩ =>
    show win2_8.index t (1 : Fin 2) * 128 ≤ (i 1).val ∧ (i 1).val < win2_8.index t (1 : Fin 2) * 128 + 128
    omega

theorem arr2_8 (c : Dev nD) : (dat2 (F := Ideal) V c).arrAt 8 cfg2.N
    = Cert.Spec.G_out (V c main_v26_0) (V c main_arg0) (V c main_v26_1) (V c main_v26_2) (V c main_v20) (V c main_v21) (V c main_arg14) (V c main_v19) :=
  (dat2 (F := Ideal) V c).arrAt_eq_of_cover 8 (Gout V c) (fun t _ => flushed8_eq V c t) cover8

end Cert.KernelIdeal.Val

end
-- ==== Proof.ValR0.lean ====
import proofs.«115762_j58188216926998_1_alg».proof.Proof.KIR0
import proofs.«115762_j58188216926998_1_alg».proof.Proof.ValR2
import proofs.«115762_j58188216926998_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val.R0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

-- The sum over the lanes of a 4000×128 block, at row p.
theorem lanesum_apply (src : FVec Ideal S4000x128 .f32) (hφ : FKind.Formats .f32)
    (hacc : (0x00000000#32 : BitVec 32) = FKind.add.neutral .f32 hφ) (p : Fin 4000) :
    multiReduction .add [1] S4000 src 0x00000000#32 reduces_S4000x128_S4000 hφ hacc (ix1 p) = ∑ k : Fin 128, src (ix2 p k) := by
  refine (Ideal.multiReduction_add_single src 0x00000000#32 reduces_S4000x128_S4000 hφ hacc (ix1 p)).trans ?_
  show ∑ k : Fin 128, src (reduces_S4000x128_S4000.lift (ix1 p) k) = _
  refine Finset.sum_congr rfl fun k _ => congrArg src (funext fun a => Fin.ext ?_)
  match a with
  | ⟨0, _⟩ => rfl
  | ⟨1, _⟩ => rfl

theorem column_apply {α : Type} (x : S4000.Idx → α) (p : Fin 4000) (u : Fin 1) :
    shapeCast S4000x1 x shapeCasts_S4000_S4000x1 (ix2 p u) = x (ix1 p) :=
  shapeCast_apply x shapeCasts_S4000_S4000x1 _ _ (by
    have hu : u.val = 0 := by omega
    rw [Shape.rowMajor_val_two, Shape.rowMajor_val_one]
    show p.val = p.val * 1 + u.val
    omega)

theorem lanes_apply {α : Type} (x : S4000x1.Idx → α) (p : Fin 4000) (q : Fin 128) :
    broadcastTo S4000x128 x broadcasts_S4000x1_S4000x128 (ix2 p q) = x (ix2 p (0 : Fin 1)) := by
  refine broadcastTo_apply x broadcasts_S4000x1_S4000x128 (ix2 p q) (ix2 p (0 : Fin 1)) fun ax => ?_
  match ax with
  | ⟨0, _⟩ => rfl
  | ⟨1, _⟩ => rfl

theorem logistic_apply {s : Shape} (x : FVec Ideal s .f32) (i : s.Idx) : logistic x i = Ideal.logistic (x i) := rfl

-- A 128-row band of a 384×128 matrix, read at an index.
theorem band (X : Vec Ideal S384x128 .f32) (o : Nat) (inb) (r : Fin 128 → Fin 384) (hr : ∀ k, (r k).val = o + k.val) (k j : Fin 128) :
    View.ld X (Rect.unit (s := S384x128) ![o, 0] S128x128.size inb) (ix2 k j) = X (ix2 (r k) j) :=
  congrArg X (Shape.idx_ext₂ (by show o + 1 * k.val = (r k).val; rw [hr]; omega) (by show 0 + 1 * j.val = j.val; omega))

variable (V : (c : Dev nD) → (b : Ref sig .tc) → Buf (Elt Ideal) ((c : Thread nD τ).loc b))

theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem idx_whole : ∀ (t : Fin cfg0.N) (a : Fin 2), win0_3.index t a = 0 ∧ win0_4.index t a = 0 ∧ win0_5.index t a = 0
    ∧ win0_6.index t a = 0 ∧ win0_7.index t a = 0 ∧ win0_8.index t a = 0 :=
  (by decide +kernel : ∀ (t : Fin grid0.N) (a : Fin 2), _)

theorem row_lt (t : Fin cfg0.N) (p : Fin 4000) : 4000 * t.val + p.val < 320000 := by
  have ht : t.val < 80 := t.isLt
  have hp := p.isLt
  omega

abbrev edge (t : Fin cfg0.N) (p : Fin 4000) : Fin 320000 := ⟨4000 * t.val + p.val, row_lt t p⟩

theorem rd0 (c : Dev nD) (t : Fin cfg0.N) (p : Fin 4000) (k : Fin 128) :
    (iblk0 V c 0 t : Vec Ideal S4000x128 .f32) (ix2 p k) = (V c main_v6 : Spec.Arr 320000 128) (ix2 (edge t p) k) := by
  obtain ⟨e0, e1⟩ := (idx_rows t).1
  show V c main_v6 (((cfg0.win 0).blk t).view.emb (ix2 p k)) = _
  refine congrArg _ (Shape.idx_ext₂ ?_ ?_)
  · show win0_0.index t (0 : Fin 2) * 4000 + 1 * p.val = 4000 * t.val + p.val
    omega
  · show win0_0.index t (1 : Fin 2) * 128 + 1 * k.val = k.val
    omega

theorem rd1 (c : Dev nD) (t : Fin cfg0.N) (p : Fin 4000) (k : Fin 128) :
    (iblk0 V c 1 t : Vec Ideal S4000x128 .f32) (ix2 p k) = (V c main_v13 : Spec.Arr 320000 128) (ix2 (edge t p) k) := by
  obtain ⟨e0, e1⟩ := (idx_rows t).2.1
  show V c main_v13 (((cfg0.win 1).blk t).view.emb (ix2 p k)) = _
  refine congrArg _ (Shape.idx_ext₂ ?_ ?_)
  · show win0_1.index t (0 : Fin 2) * 4000 + 1 * p.val = 4000 * t.val + p.val
    omega
  · show win0_1.index t (1 : Fin 2) * 128 + 1 * k.val = k.val
    omega

theorem rd2 (c : Dev nD) (t : Fin cfg0.N) (p : Fin 4000) (k : Fin 128) :
    (iblk0 V c 2 t : Vec Ideal S4000x128 .f32) (ix2 p k) = (V c main_arg1 : Spec.Arr 320000 128) (ix2 (edge t p) k) := by
  obtain ⟨e0, e1⟩ := (idx_rows t).2.2.1
  show V c main_arg1 (((cfg0.win 2).blk t).view.emb (ix2 p k)) = _
  refine congrArg _ (Shape.idx_ext₂ ?_ ?_)
  · show win0_2.index t (0 : Fin 2) * 4000 + 1 * p.val = 4000 * t.val + p.val
    omega
  · show win0_2.index t (1 : Fin 2) * 128 + 1 * k.val = k.val
    omega

theorem rd3 (c : Dev nD) (t : Fin cfg0.N) : (iblk0 V c 3 t : Vec Ideal S384x128 .f32) = (V c main_arg4 : Spec.Arr 384 128) :=
  funext fun y => congrArg (V c main_arg4) (funext fun a => Fin.ext (win0_3.rect_emb_val_of_index_zero t a (idx_whole t a).1 y))

theorem rd4 (c : Dev nD) (t : Fin cfg0.N) : (iblk0 V c 4 t : Vec Ideal S1x128 .f32) = (V c main_v14 : Spec.Arr 1 128) :=
  funext fun y => congrArg (V c main_v14) (funext fun a => Fin.ext (win0_4.rect_emb_val_of_index_zero t a (idx_whole t a).2.1 y))

theorem rd5 (c : Dev nD) (t : Fin cfg0.N) : (iblk0 V c 5 t : Vec Ideal S128x128 .f32) = (V c main_arg6 : Spec.Arr 128 128) :=
  funext fun y => congrArg (V c main_arg6) (funext fun a => Fin.ext (win0_5.rect_emb_val_of_index_zero t a (idx_whole t a).2.2.1 y))

theorem rd6 (c : Dev nD) (t : Fin cfg0.N) : (iblk0 V c 6 t : Vec Ideal S1x128 .f32) = (V c main_v15 : Spec.Arr 1 128) :=
  funext fun y => congrArg (V c main_v15) (funext fun a => Fin.ext (win0_6.rect_emb_val_of_index_zero t a (idx_whole t a).2.2.2.1 y))

theorem rd7 (c : Dev nD) (t : Fin cfg0.N) : (iblk0 V c 7 t : Vec Ideal S1x128 .f32) = (V c main_v17 : Spec.Arr 1 128) :=
  funext fun y => congrArg (V c main_v17) (funext fun a => Fin.ext (win0_7.rect_emb_val_of_index_zero t a (idx_whole t a).2.2.2.2.1 y))

theorem rd8 (c : Dev nD) (t : Fin cfg0.N) : (iblk0 V c 8 t : Vec Ideal S1x1 .f32) = (V c main_v16 : Spec.Arr 1 1) :=
  funext fun y => congrArg (V c main_v16) (funext fun a => Fin.ext (win0_8.rect_emb_val_of_index_zero t a (idx_whole t a).2.2.2.2.2 y))

abbrev Gd (c : Dev nD) : Spec.Arr 320000 128 :=
  Spec.G_dnew (V c main_v6) (V c main_v13) (V c main_arg1) (V c main_arg4) (V c main_v14) (V c main_arg6) (V c main_v15)
abbrev Gm (c : Dev nD) : Spec.Arr 320000 128 :=
  Spec.G_mg (V c main_v6) (V c main_v13) (V c main_arg1) (V c main_arg4) (V c main_v14) (V c main_arg6) (V c main_v15)
    (V c main_v17) (V c main_v16)

-- The message payload over point t's blocks.
abbrev M (c : Dev nD) (t : Fin cfg0.N) :=
  k0_pay2 (F := Ideal) (iblk0 V c 0 t) (iblk0 V c 1 t) (iblk0 V c 2 t) (View.ld (iblk0 V c 3 t) r0_1) (View.ld (iblk0 V c 3 t) r0_2) (View.ld (iblk0 V c 3 t) r0_3) (iblk0 V c 4 t) (iblk0 V c 5 t) (iblk0 V c 6 t)

theorem msg_blk (c : Dev nD) (t : Fin cfg0.N) (p : Fin 4000) (q : Fin 128) :
    M V c t (ix2 p q) = Spec.msg (V c main_v6) (V c main_v13) (V c main_arg1) (V c main_arg4) (V c main_v14) (V c main_arg6) (V c main_v15) (edge t p) q := by
  unfold M k0_pay2
  simp only [shapeCast_self, mulf_apply, addf_apply, maximumf_apply, logistic_apply, truncf_apply, broadcast_apply, matmulU2_apply,
    broadcastTo_1b_ab_apply]
  rw [rd3 V c t, rd4 V c t, rd5 V c t, rd6 V c t]
  simp only [rd0 V c t p, rd1 V c t p, rd2 V c t p, band (V c main_arg4) 0 inb_S384x128_S128x128_0_0 (fun k => ⟨k.val, by omega⟩) (fun _ => (Nat.zero_add _).symm),
    band (V c main_arg4) 128 inb_S384x128_S128x128_128_0 (fun k => ⟨128 + k.val, by omega⟩) (fun _ => rfl),
    band (V c main_arg4) 256 inb_S384x128_S128x128_256_0 (fun k => ⟨256 + k.val, by omega⟩) (fun _ => rfl)]
  rfl

theorem dnew_blk (c : Dev nD) (t : Fin cfg0.N) (p : Fin 4000) (q : Fin 128) :
    k0_pay3 (F := Ideal) (iblk0 V c 0 t) (iblk0 V c 1 t) (iblk0 V c 2 t) (View.ld (iblk0 V c 3 t) r0_1) (View.ld (iblk0 V c 3 t) r0_2) (View.ld (iblk0 V c 3 t) r0_3) (iblk0 V c 4 t) (iblk0 V c 5 t) (iblk0 V c 6 t) (ix2 p q) = Gd V c (ix2 (edge t p) q) := by
  unfold k0_pay3
  simp only [addf_apply, rd2 V c t p q, msg_blk V c t p q]
  rfl

theorem mg_blk (c : Dev nD) (t : Fin cfg0.N) (p : Fin 4000) (q : Fin 128) :
    k0_pay1 (M V c t) (iblk0 V c 7 t) (iblk0 V c 8 t) (ix2 p q) = Gm V c (ix2 (edge t p) q) := by
  unfold k0_pay1
  simp only [shapeCast_self, mulf_apply, addf_apply, logistic_apply, lanes_apply, column_apply, broadcastTo_1b_ab_apply]
  refine (congrArg (fun s => M V c t (ix2 p q) * Ideal.logistic (s + (iblk0 V c 8 t : Vec Ideal S1x1 .f32) (ix2 (0 : Fin 1) (0 : Fin 1))))
    (lanesum_apply _ _ _ p)).trans ?_
  rw [rd7 V c t, rd8 V c t]
  simp only [mulf_apply, broadcastTo_1b_ab_apply, msg_blk V c t p]
  rfl

theorem flushed9_eq (c : Dev nD) (t : Fin cfg0.N) :
    (dat0 (F := Ideal) V c).flushed 9 t = ((cfg0.win 9).blk t).view.read (Elt Ideal) (Gd V c) := by
  show (cfg0.win 9).cut (grid0.coords t) ((dat0 V c).after 9 t) = _
  rw [after0_9]
  unfold out0_9
  rw [View.canon_unit_zero hz]
  simp only [View.ld_unit_zero (S := S4000x128) hz, View.ld_unit_zero (S := S1x128) hz, View.ld_unit_zero (S := S128x128) hz]
  funext j
  obtain ⟨p, q, rfl⟩ : ∃ (p : Fin 4000) (q : Fin 128), j = ix2 p q := ⟨j 0, j 1, eq_ix2 j⟩
  refine (dnew_blk V c t p q).trans ?_
  obtain ⟨e0, e1⟩ := (idx_rows t).2.2.2.1
  refine congrArg (Gd V c) (Shape.idx_ext₂ ?_ ?_)
  · show 4000 * t.val + p.val = win0_9.index t (0 : Fin 2) * 4000 + 1 * p.val
    omega
  · show q.val = win0_9.index t (1 : Fin 2) * 128 + 1 * q.val
    omega

theorem flushed10_eq (c : Dev nD) (t : Fin cfg0.N) :
    (dat0 (F := Ideal) V c).flushed 10 t = ((cfg0.win 10).blk t).view.read (Elt Ideal) (Gm V c) := by
  show (cfg0.win 10).cut (grid0.coords t) ((dat0 V c).after 10 t) = _
  rw [after0_10]
  unfold out0_10
  rw [View.canon_unit_zero hz]
  simp only [View.ld_unit_zero (S := S4000x128) hz, View.ld_unit_zero (S := S1x128) hz, View.ld_unit_zero (S := S128x128) hz,
    View.ld_unit_zero (S := S1x1) hz]
  funext j
  obtain ⟨p, q, rfl⟩ : ∃ (p : Fin 4000) (q : Fin 128), j = ix2 p q := ⟨j 0, j 1, eq_ix2 j⟩
  refine (mg_blk V c t p q).trans ?_
  obtain ⟨e0, e1⟩ := (idx_rows t).2.2.2.2
  refine congrArg (Gm V c) (Shape.idx_ext₂ ?_ ?_)
  · show 4000 * t.val + p.val = win0_10.index t (0 : Fin 2) * 4000 + 1 * p.val
    omega
  · show q.val = win0_10.index t (1 : Fin 2) * 128 + 1 * q.val
    omega

-- Row r lies in the block of point r / 4000.
theorem cover9 (i : S320000x128.Idx) : ∃ t : Fin cfg0.N, (cfg0.win 9).flush t = true ∧ i ∈ ((cfg0.win 9).blk t).view.set := by
  have hi0 : (i 0).val < 320000 := (i 0).isLt
  have hi1 : (i 1).val < 128 := (i 1).isLt
  obtain ⟨t, ht⟩ : ∃ t : Fin cfg0.N, t.val = (i 0).val / 4000 := ⟨⟨_, by show _ < 80; omega⟩, rfl⟩
  obtain ⟨e0, e1⟩ := (idx_rows t).2.2.2.1
  refine ⟨t, flush0_9 _, ?_⟩
  show i ∈ ((View.whole main_v22_0).slice (win0_9.rect t)).set
  rw [View.set_slice_whole, Rect.mem_set_unit]
  intro a
  match a with
  | ⟨0, _⟩ =>
    show win0_9.index t (0 : Fin 2) * 4000 ≤ (i 0).val ∧ (i 0).val < win0_9.index t (0 : Fin 2) * 4000 + 4000
    omega
  | ⟨1, _⟩ =>
    show win0_9.index t (1 : Fin 2) * 128 ≤ (i 1).val ∧ (i 1).val < win0_9.index t (1 : Fin 2) * 128 + 128
    omega

theorem cover10 (i : S320000x128.Idx) : ∃ t : Fin cfg0.N, (cfg0.win 10).flush t = true ∧ i ∈ ((cfg0.win 10).blk t).view.set := by
  have hi0 : (i 0).val < 320000 := (i 0).isLt
  have hi1 : (i 1).val < 128 := (i 1).isLt
  obtain ⟨t, ht⟩ : ∃ t : Fin cfg0.N, t.val = (i 0).val / 4000 := ⟨⟨_, by show _ < 80; omega⟩, rfl⟩
  obtain ⟨e0, e1⟩ := (idx_rows t).2.2.2.2
  refine ⟨t, flush0_10 _, ?_⟩
  show i ∈ ((View.whole main_v22_1).slice (win0_10.rect t)).set
  rw [View.set_slice_whole, Rect.mem_set_unit]
  intro a
  match a with
  | ⟨0, _⟩ =>
    show win0_10.index t (0 : Fin 2) * 4000 ≤ (i 0).val ∧ (i 0).val < win0_10.index t (0 : Fin 2) * 4000 + 4000
    omega
  | ⟨1, _⟩ =>
    show win0_10.index t (1 : Fin 2) * 128 ≤ (i 1).val ∧ (i 1).val < win0_10.index t (1 : Fin 2) * 128 + 128
    omega

end Cert.KernelIdeal.Val.R0

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

theorem arr0_9 (V : (c : Dev nD) → (b : Ref sig .tc) → Buf (Elt Ideal) ((c : Thread nD τ).loc b)) (c : Dev nD) :
    (Cert.KernelIdeal.Hand.dat0 (F := Ideal) V c).arrAt 9 cfg0.N
      = Cert.Spec.G_dnew (V c main_v6) (V c main_v13) (V c main_arg1) (V c main_arg4) (V c main_v14) (V c main_arg6) (V c main_v15) :=
  (dat0 (F := Ideal) V c).arrAt_eq_of_cover 9 (R0.Gd V c) (fun t _ => R0.flushed9_eq V c t) R0.cover9

theorem arr0_10 (V : (c : Dev nD) → (b : Ref sig .tc) → Buf (Elt Ideal) ((c : Thread nD τ).loc b)) (c : Dev nD) :
    (Cert.KernelIdeal.Hand.dat0 (F := Ideal) V c).arrAt 10 cfg0.N
      = Cert.Spec.G_mg (V c main_v6) (V c main_v13) (V c main_arg1) (V c main_arg4) (V c main_v14) (V c main_arg6) (V c main_v15) (V c main_v17) (V c main_v16) :=
  (dat0 (F := Ideal) V c).arrAt_eq_of_cover 10 (R0.Gm V c) (fun t _ => R0.flushed10_eq V c t) R0.cover10

end Cert.KernelIdeal.Val

end
-- ==== Proof.LibRealAlgebra.lean ====
import Idealize.ShloMosaic.PureOps.Ideal
import Mathlib.Algebra.BigOperators.Fin
import Mathlib.Logic.Equiv.Fin.Basic
import Mathlib.Tactic.Ring
import Mathlib.Tactic.FieldSimp
import Mathlib.Tactic.NormNum

noncomputable section

namespace Cert.LibRealAlgebra

open Idealize.ShloMosaic
open scoped BigOperators

def IsReal (x : EReal) : Prop := ∃ r : ℝ, x = (r : EReal)

theorem IsReal.zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (Max.max x y) := by
  rcases max_choice x y with h | h <;> rw [h] <;> assumption

theorem coe_finset_sum {ι : Type*} (s : Finset ι) (r : ι → ℝ) :
    ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) :=
  Finset.sum_induction f IsReal (fun _ _ => IsReal.add) IsReal.zero h

theorem IsReal.sum_univ {ι : Type*} [Fintype ι] (f : ι → EReal) (h : ∀ i, IsReal (f i)) :
    IsReal (∑ i, f i) :=
  IsReal.sum Finset.univ f fun i _ => h i

theorem IsReal.logistic {x : EReal} (hx : IsReal x) : IsReal (Ideal.logistic x) := by
  obtain ⟨a, rfl⟩ := hx
  exact ⟨(1 + Real.exp (-a))⁻¹, Ideal.logistic_coe a⟩

theorem sum_split {M : Type*} [AddCommMonoid M] (a b : ℕ) (f : Fin (a + b) → M) :
    ∑ k : Fin (a + b), f k
      = ∑ k : Fin a, f ⟨k.val, by omega⟩ + ∑ k : Fin b, f ⟨a + k.val, by omega⟩ := by
  rw [Fin.sum_univ_add]; rfl

theorem sum_split3 (f : Fin 384 → EReal) :
    ∑ k : Fin 384, f k
      = (∑ k : Fin 128, f ⟨k.val, by omega⟩ + ∑ k : Fin 128, f ⟨128 + k.val, by omega⟩)
          + ∑ k : Fin 128, f ⟨256 + k.val, by omega⟩ := by
  refine (sum_split 256 128 f).trans ?_
  congr 1
  exact sum_split 128 128 (fun k : Fin (128 + 128) => f ⟨k.val, by omega⟩)

theorem idx_lt {T B : ℕ} (t : Fin T) (r : Fin B) : t.val * B + r.val < T * B :=
  calc t.val * B + r.val < t.val * B + B := Nat.add_lt_add_left r.isLt _
    _ = (t.val + 1) * B := (Nat.succ_mul _ _).symm
    _ ≤ T * B := Nat.mul_le_mul_right _ t.isLt

theorem sum_mul {M : Type*} [AddCommMonoid M] (T B : ℕ) (g : Fin (T * B) → M) :
    ∑ n : Fin (T * B), g n = ∑ t : Fin T, ∑ r : Fin B, g ⟨t.val * B + r.val, idx_lt t r⟩ := by
  rw [← (finProdFinEquiv (m := T) (n := B)).sum_comp g, Fintype.sum_prod_type]
  refine Finset.sum_congr rfl fun t _ => Finset.sum_congr rfl fun r _ => ?_
  congr 1
  apply Fin.ext
  show r.val + B * t.val = t.val * B + r.val
  rw [Nat.mul_comm, Nat.add_comm]

theorem sum_blocks (g : Fin 20000 → EReal) :
    ∑ n : Fin 20000, g n
      = ((((0 + ∑ r : Fin 4000, g ⟨0 * 4000 + r.val, by omega⟩)
              + ∑ r : Fin 4000, g ⟨1 * 4000 + r.val, by omega⟩)
            + ∑ r : Fin 4000, g ⟨2 * 4000 + r.val, by omega⟩)
          + ∑ r : Fin 4000, g ⟨3 * 4000 + r.val, by omega⟩)
        + ∑ r : Fin 4000, g ⟨4 * 4000 + r.val, by omega⟩ := by
  have h := sum_mul 5 4000 g
  rw [Fin.sum_univ_five] at h
  rw [zero_add]
  exact h

theorem real_var_identity {ι : Type*} [Fintype ι] (r : ι → ℝ) (N : ℝ) (hN : N ≠ 0)
    (hc : (Fintype.card ι : ℝ) = N) :
    (∑ i, (r i - (∑ j, r j) * (1 / N)) * (r i - (∑ j, r j) * (1 / N))) * (1 / N)
      = (∑ i, r i * r i) * (1 / N) - ((∑ j, r j) * (1 / N)) * ((∑ j, r j) * (1 / N)) := by
  generalize hS : ∑ j, r j = S
  generalize hm : S * (1 / N) = m
  have h1 : ∑ i, (r i - m) * (r i - m) = ∑ i, r i * r i - 2 * m * S + N * (m * m) := by
    have e : ∀ i, (r i - m) * (r i - m) = r i * r i - 2 * m * r i + m * m := fun i => by ring
    simp only [e]
    rw [Finset.sum_add_distrib, Finset.sum_sub_distrib, ← Finset.mul_sum, hS, Finset.sum_const,
      Finset.card_univ, nsmul_eq_mul, hc]
  rw [h1, ← hm]
  field_simp
  ring

theorem var_identity {ι : Type*} [Fintype ι] (u : ι → EReal) (h : ∀ i, IsReal (u i)) (N : ℝ) (hN : N ≠ 0)
    (hc : (Fintype.card ι : ℝ) = N) :
    Ideal.div (∑ i, (u i - Ideal.div (∑ j, u j) (N : EReal)) * (u i - Ideal.div (∑ j, u j) (N : EReal))) (N : EReal)
      = Ideal.div (∑ i, u i * u i) (N : EReal)
          - Ideal.div (∑ j, u j) (N : EReal) * Ideal.div (∑ j, u j) (N : EReal) := by
  choose r hr using h
  have hu : u = fun i => ((r i : ℝ) : EReal) := funext hr
  subst hu
  simp only [Ideal.div_coe hN, coe_finset_sum, ← EReal.coe_mul, ← EReal.coe_sub]
  rw [real_var_identity r N hN hc]

@[simp] theorem ofBits_zero : Ideal.ofBits .f32 0x00000000#32 = 0 := by
  simp [Ideal.ofBits, Ideal.ieee]

@[simp] theorem ofBits_one : Ideal.ofBits .f32 0x3F800000#32 = 1 := by
  simp [Ideal.ofBits, Ideal.ieee, -EReal.coe_mul]; norm_num

@[simp] theorem ofBits_20000 : Ideal.ofBits .f32 0x469C4000#32 = ((20000 : ℝ) : EReal) := by
  simp [Ideal.ofBits, Ideal.ieee, -EReal.coe_mul]; norm_num

theorem isReal_ofBits_zero : IsReal (Ideal.ofBits .f32 0x00000000#32) := by
  rw [ofBits_zero]; exact IsReal.zero

@[simp] theorem sitofp_zero : FloatOps.sitofp (F := Ideal) .f32 (0#32) = (0 : EReal) := by
  show (((0#32 : BitVec 32).toInt : ℝ) : EReal) = 0
  simp

theorem var_divisor :
    (Ideal.ofBits .f32 0x469C4000#32 - FloatOps.sitofp (F := Ideal) .f32 (0#32) : EReal) = ((20000 : ℝ) : EReal) := by
  rw [sitofp_zero, ofBits_20000, sub_zero]

theorem cmp_ogt_20000_zero : Ideal.cmp .ogt ((20000 : ℝ) : EReal) 0 = 1#1 := by
  have h : (0 : EReal) < ((20000 : ℝ) : EReal) := by exact_mod_cast (by norm_num : (0 : ℝ) < 20000)
  simp [Ideal.cmp, h]

theorem var_guard :
    FloatOps.cmpf (F := Ideal) (φ := .f32) .ogt
        (Ideal.ofBits .f32 0x469C4000#32 - FloatOps.sitofp (F := Ideal) .f32 (0#32))
        (Ideal.ofBits .f32 0x00000000#32) = 1#1 := by
  show Ideal.cmp .ogt _ _ = 1#1
  rw [var_divisor, ofBits_zero, cmp_ogt_20000_zero]

theorem scalar_select_one {α : Type} (a b : α) : Scalar.select (1#1) a b = a := by
  simp [Scalar.select]

end Cert.LibRealAlgebra

end
-- ==== Proof.ValR1a.lean ====
import proofs.«115762_j58188216926998_1_alg».proof.Proof.ValR2
import proofs.«115762_j58188216926998_1_alg».proof.Proof.Spec
import proofs.«115762_j58188216926998_1_alg».proof.Proof.LibRealAlgebra
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val.R1

open Cert.KernelIdeal Cert.KernelIdeal.Gen
open Idealize.ShloMosaic Idealize.ShloMosaic.TcCoe Idealize.ShloMosaic.ValueIdx

theorem pay6_apply (x0 x1 : Vec Ideal S4000x128 .f32) (x2 : Vec Ideal S128x128 .f32) (x3 : Vec Ideal S1x128 .f32)
    (p : Fin 4000) (q : Fin 128) :
    k1_pay6 x0 x1 x2 x3 (ix2 p q)
      = max ((∑ k : Fin 128, (x0 (ix2 p k) + x1 (ix2 p k)) * x2 (ix2 k q)) + x3 (ix2 0 q)) Cert.Spec.zeroLit := by
  unfold k1_pay6
  simp only [shapeCast_self]
  refine congrArg (max · Cert.Spec.zeroLit) ?_
  refine congrArg₂ (· + ·) ?_ (broadcastTo_1b_ab_apply x3 _ p q)
  exact matmulU2_apply _ _ p q

theorem colsum_apply (src : FVec Ideal S4000x128 .f32) (hacc : (0x00000000#32 : BitVec 32) = 0x00000000#32) (q : Fin 128) :
    shapeCast S1x128 (multiReduction (F := Ideal) .add [0] S128 src 0x00000000#32 reduces_S4000x128_S128 (.inl rfl) hacc)
        shapeCasts_S128_S1x128 (ix2 0 q)
      = ∑ r : Fin 4000, src (ix2 r q) := by
  refine (shapeCast_a_1a_apply _ _ 0 q).trans ?_
  refine (Ideal.multiReduction_add_single src 0x00000000#32 reduces_S4000x128_S128 (.inl rfl) hacc (ix1 q)).trans ?_
  refine Finset.sum_congr rfl fun r _ => congrArg src ?_
  funext a
  apply Fin.ext
  match a with
  | ⟨0, _⟩ => rfl
  | ⟨1, _⟩ => rfl

theorem pay7_apply (x0 x1 : Vec Ideal S4000x128 .f32) (x2 : Vec Ideal S128x128 .f32) (x3 : Vec Ideal S1x128 .f32)
    (acc : Vec Ideal S1x128 .f32) (q : Fin 128) :
    k1_pay7 x0 x1 x2 x3 acc (ix2 0 q) = acc (ix2 0 q) + ∑ r : Fin 4000, k1_pay6 x0 x1 x2 x3 (ix2 r q) := by
  unfold k1_pay7
  simp only [shapeCast_self]
  exact congrArg (acc (ix2 0 q) + ·) (colsum_apply (k1_pay6 x0 x1 x2 x3) rfl q)

theorem pay8_apply (x0 x1 : Vec Ideal S4000x128 .f32) (x2 : Vec Ideal S128x128 .f32) (x3 : Vec Ideal S1x128 .f32)
    (acc : Vec Ideal S1x128 .f32) (q : Fin 128) :
    k1_pay1 (k1_pay8 x0 x1 x2 x3 acc) (ix2 0 q)
      = acc (ix2 0 q) + ∑ r : Fin 4000, k1_pay6 x0 x1 x2 x3 (ix2 r q) * k1_pay6 x0 x1 x2 x3 (ix2 r q) := by
  unfold k1_pay1 k1_pay8
  simp only [shapeCast_self]
  exact congrArg (acc (ix2 0 q) + ·) (colsum_apply (mulf (k1_pay6 x0 x1 x2 x3) (k1_pay6 x0 x1 x2 x3)) rfl q)

theorem pay4_apply (j : S1x128.Idx) : (k1_pay4 (F := Ideal)) j = Cert.Spec.zeroLit := by
  unfold k1_pay4
  simp only [shapeCast_self]
  rfl
theorem pay5_apply (j : S1x128.Idx) : (k1_pay5 (F := Ideal)) j = Cert.Spec.zeroLit := by
  unfold k1_pay5
  simp only [shapeCast_self]
  rfl

theorem pay2_apply (s : Vec Ideal S1x128 .f32) (q : Fin 128) :
    k1_pay2 s (ix2 0 q) = Ideal.div (s (ix2 0 q)) Cert.Spec.nLit := rfl

theorem pay3_apply (s ss : Vec Ideal S1x128 .f32) (q : Fin 128) :
    k1_pay3 s ss (ix2 0 q)
      = Ideal.div (ss (ix2 0 q)) Cert.Spec.nLit - Ideal.div (s (ix2 0 q)) Cert.Spec.nLit * Ideal.div (s (ix2 0 q)) Cert.Spec.nLit := rfl

end Cert.KernelIdeal.Val.R1

end
-- ==== Proof.ValR1ua.lean ====
import proofs.«115762_j58188216926998_1_alg».proof.Proof.KIR1Runs
import proofs.«115762_j58188216926998_1_alg».proof.Proof.ValR1a
import proofs.«115762_j58188216926998_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

theorem row_lt1 (t : Fin cfg1.N) (p : Fin 4000) : 4000 * t.val + p.val < 20000 := by
  have ht : t.val < 5 := Nat.lt_of_lt_of_eq t.isLt N_1
  have := p.isLt; omega

theorem blk1_0_apply (c : Dev nD) (t : Fin cfg1.N) (p : Fin 4000) (q : Fin 128) :
    (iblk1 V c 0 t : Vec Ideal S4000x128 .f32) (ix2 p q) = (V c main_arg0 : Cert.Spec.Arr 20000 128) (ix2 ⟨4000 * t.val + p.val, row_lt1 t p⟩ q) := by
  obtain ⟨e0, e1, -⟩ := idx_facts1 t
  show V c main_arg0 (((cfg1.win 0).blk t).view.emb (ix2 p q)) = _
  refine congrArg _ (Shape.idx_ext₂ ?_ ?_)
  · show win1_0.index t (0 : Fin 2) * 4000 + 1 * p.val = 4000 * t.val + p.val
    omega
  · show win1_0.index t (1 : Fin 2) * 128 + 1 * q.val = q.val
    omega

theorem blk1_1_apply (c : Dev nD) (t : Fin cfg1.N) (p : Fin 4000) (q : Fin 128) :
    (iblk1 V c 1 t : Vec Ideal S4000x128 .f32) (ix2 p q) = (V c main_v25 : Cert.Spec.Arr 20000 128) (ix2 ⟨4000 * t.val + p.val, row_lt1 t p⟩ q) := by
  obtain ⟨-, -, e0, e1, -⟩ := idx_facts1 t
  show V c main_v25 (((cfg1.win 1).blk t).view.emb (ix2 p q)) = _
  refine congrArg _ (Shape.idx_ext₂ ?_ ?_)
  · show win1_1.index t (0 : Fin 2) * 4000 + 1 * p.val = 4000 * t.val + p.val
    omega
  · show win1_1.index t (1 : Fin 2) * 128 + 1 * q.val = q.val
    omega

theorem blk1_2_eq (c : Dev nD) (t : Fin cfg1.N) : (iblk1 V c 2 t : Vec Ideal S128x128 .f32) = (V c main_arg10 : Cert.Spec.Arr 128 128) := by
  obtain ⟨-, -, -, -, e0, e1, -⟩ := idx_facts1 t
  exact funext fun y => congrArg (V c main_arg10) (Shape.idx_ext₂ (win1_2.rect_emb_val_of_index_zero t (0 : Fin 2) e0 y)
    (win1_2.rect_emb_val_of_index_zero t (1 : Fin 2) e1 y))

theorem blk1_3_eq (c : Dev nD) (t : Fin cfg1.N) : (iblk1 V c 3 t : Vec Ideal S1x128 .f32) = (V c main_v18 : Cert.Spec.Arr 1 128) := by
  obtain ⟨-, -, -, -, -, -, e0, e1, -⟩ := idx_facts1 t
  exact funext fun y => congrArg (V c main_v18) (Shape.idx_ext₂ (win1_3.rect_emb_val_of_index_zero t (0 : Fin 2) e0 y)
    (win1_3.rect_emb_val_of_index_zero t (1 : Fin 2) e1 y))

abbrev Gu (c : Dev nD) : Cert.Spec.Arr 20000 128 :=
  Cert.Spec.G_u (V c main_arg0) (V c main_v25) (V c main_arg10) (V c main_v18)

theorem u_blocks (c : Dev nD) (t : Fin cfg1.N) (p : Fin 4000) (q : Fin 128) :
    k1_pay6 (F := Ideal) (iblk1 V c 0 t) (iblk1 V c 1 t) (iblk1 V c 2 t) (iblk1 V c 3 t) (ix2 p q)
      = Cert.Spec.G_u (V c main_arg0) (V c main_v25) (V c main_arg10) (V c main_v18) (ix2 ⟨4000 * t.val + p.val, row_lt1 t p⟩ q) := by
  refine (R1.pay6_apply (iblk1 V c 0 t) (iblk1 V c 1 t) (iblk1 V c 2 t) (iblk1 V c 3 t) p q).trans ?_
  rw [blk1_2_eq V c t, blk1_3_eq V c t]
  simp only [blk1_0_apply V c t, blk1_1_apply V c t]
  rfl

end Cert.KernelIdeal.Val

end
-- ==== Proof.ValR1.lean ====
import proofs.«115762_j58188216926998_1_alg».proof.Proof.KIR1
import proofs.«115762_j58188216926998_1_alg».proof.Proof.ValR1a
import proofs.«115762_j58188216926998_1_alg».proof.Proof.ValR1ua
import proofs.«115762_j58188216926998_1_alg».proof.Proof.Spec
import proofs.«115762_j58188216926998_1_alg».proof.Proof.LibRealAlgebra
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val.R1

open Cert.KernelIdeal Cert.KernelIdeal.Gen Cert.KernelIdeal.Hand
open Idealize.ShloMosaic Idealize.ShloMosaic.TcCoe Idealize.ShloMosaic.ValueIdx
open Idealize.ShloMosaic.Pipeline (Dat)

section Pieces
variable {F : FTy → Type} [FloatOps F] {c : Dev nD} {i : grid1.Coords}
  {arg1 arg2 arg5 : Memref sig .tc .vmem S4000x128 .f32} {arg3 : Memref sig .tc .vmem S128x128 .f32}
  {arg4 arg6 arg7 arg8 arg9 : Memref sig .tc .vmem S1x128 .f32}
  {harg1 : arg1.IsWhole} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole}
  {x0 x1 : Vec F S4000x128 .f32} {x2 : Vec F S128x128 .f32} {x3 xs0 xs1 : Vec F S1x128 .f32}

-- What each control case leaves in the block of activations, in the two accumulators and, at the last point, in the two statistics' blocks, as the body's payloads.
theorem pieces_A (hc0 : cond1_0 i) (hc1 : ¬cond1_1 i) :
    (outs1_A c i arg1 harg1 arg2 harg2 arg3 harg3 arg4 harg4 arg5 harg5 arg6 harg6 arg7 harg7 arg8 harg8 arg9 harg9 hc0 hc1 x0 x1 x2 x3).1 = k1_pay6 x0 x1 x2 x3
    ∧ (outs1_A c i arg1 harg1 arg2 harg2 arg3 harg3 arg4 harg4 arg5 harg5 arg6 harg6 arg7 harg7 arg8 harg8 arg9 harg9 hc0 hc1 x0 x1 x2 x3).2.2.2.1 = k1_pay7 x0 x1 x2 x3 k1_pay4
    ∧ (outs1_A c i arg1 harg1 arg2 harg2 arg3 harg3 arg4 harg4 arg5 harg5 arg6 harg6 arg7 harg7 arg8 harg8 arg9 harg9 hc0 hc1 x0 x1 x2 x3).2.2.2.2 = k1_pay1 (k1_pay8 x0 x1 x2 x3 k1_pay5) := by
  unfold outs1_A outsOf
  dsimp only
  simp only [View.read_writes_eq_canon _ _ _ (covers1_A c i arg1 harg1 arg2 harg2 arg3 harg3 arg4 harg4 arg5 harg5 arg6 harg6 arg7 harg7 arg8 harg8 arg9 harg9 hc0 hc1 x0 x1 x2 x3).1,
    View.read_writes_eq_canon _ _ _ (covers1_A c i arg1 harg1 arg2 harg2 arg3 harg3 arg4 harg4 arg5 harg5 arg6 harg6 arg7 harg7 arg8 harg8 arg9 harg9 hc0 hc1 x0 x1 x2 x3).2.1,
    View.read_writes_eq_canon _ _ _ (covers1_A c i arg1 harg1 arg2 harg2 arg3 harg3 arg4 harg4 arg5 harg5 arg6 harg6 arg7 harg7 arg8 harg8 arg9 harg9 hc0 hc1 x0 x1 x2 x3).2.2]
  unfold kernelRun1_A
  dsimp only
  sl_unfold_words
  simp only [View.canon_cons_unit_zero (S := S1x128) hz, View.canon_cons_unit_zero (S := S4000x128) hz, View.readAt_eq_ld, harg1.read_unread, harg2.read_unread, harg3.read_unread, harg4.read_unread, harg8.read_unread, harg9.read_unread,
    View.ld_unit_zero (S := S4000x128) hz, View.ld_unit_zero (S := S128x128) hz, View.ld_unit_zero (S := S1x128) hz,
    View.readCov_unit_zero (S := S1x128) _ hz, and_self]

theorem pieces_B (hc0 : ¬cond1_0 i) (hc1 : ¬cond1_1 i) :
    (outs1_B c i arg1 harg1 arg2 harg2 arg3 harg3 arg4 harg4 arg5 harg5 arg6 harg6 arg7 harg7 arg8 harg8 arg9 harg9 hc0 hc1 x0 x1 x2 x3 xs0 xs1).1 = k1_pay6 x0 x1 x2 x3
    ∧ (outs1_B c i arg1 harg1 arg2 harg2 arg3 harg3 arg4 harg4 arg5 harg5 arg6 harg6 arg7 harg7 arg8 harg8 arg9 harg9 hc0 hc1 x0 x1 x2 x3 xs0 xs1).2.2.2.1 = k1_pay7 x0 x1 x2 x3 xs0
    ∧ (outs1_B c i arg1 harg1 arg2 harg2 arg3 harg3 arg4 harg4 arg5 harg5 arg6 harg6 arg7 harg7 arg8 harg8 arg9 harg9 hc0 hc1 x0 x1 x2 x3 xs0 xs1).2.2.2.2 = k1_pay1 (k1_pay8 x0 x1 x2 x3 xs1) := by
  unfold outs1_B outsOf
  dsimp only
  simp only [View.read_writes_eq_canon _ _ _ (covers1_B c i arg1 harg1 arg2 harg2 arg3 harg3 arg4 harg4 arg5 harg5 arg6 harg6 arg7 harg7 arg8 harg8 arg9 harg9 hc0 hc1 x0 x1 x2 x3 xs0 xs1).1,
    View.read_writes_eq_canon _ _ _ (covers1_B c i arg1 harg1 arg2 harg2 arg3 harg3 arg4 harg4 arg5 harg5 arg6 harg6 arg7 harg7 arg8 harg8 arg9 harg9 hc0 hc1 x0 x1 x2 x3 xs0 xs1).2.1,
    View.read_writes_eq_canon _ _ _ (covers1_B c i arg1 harg1 arg2 harg2 arg3 harg3 arg4 harg4 arg5 harg5 arg6 harg6 arg7 harg7 arg8 harg8 arg9 harg9 hc0 hc1 x0 x1 x2 x3 xs0 xs1).2.2]
  unfold kernelRun1_B
  dsimp only
  sl_unfold_words
  simp only [View.canon_cons_unit_zero (S := S1x128) hz, View.canon_cons_unit_zero (S := S4000x128) hz, View.readAt_eq_ld, harg1.read_unread, harg2.read_unread, harg3.read_unread, harg4.read_unread, harg8.read_unread, harg9.read_unread,
    View.ld_unit_zero (S := S4000x128) hz, View.ld_unit_zero (S := S128x128) hz, View.ld_unit_zero (S := S1x128) hz,
    View.readCov_unit_zero (S := S1x128) _ hz, and_self]

theorem pieces_C (hc0 : ¬cond1_0 i) (hc1 : cond1_1 i) :
    (outs1_C c i arg1 harg1 arg2 harg2 arg3 harg3 arg4 harg4 arg5 harg5 arg6 harg6 arg7 harg7 arg8 harg8 arg9 harg9 hc0 hc1 x0 x1 x2 x3 xs0 xs1).1 = k1_pay6 x0 x1 x2 x3
    ∧ (outs1_C c i arg1 harg1 arg2 harg2 arg3 harg3 arg4 harg4 arg5 harg5 arg6 harg6 arg7 harg7 arg8 harg8 arg9 harg9 hc0 hc1 x0 x1 x2 x3 xs0 xs1).2.1 = k1_pay2 (k1_pay7 x0 x1 x2 x3 xs0)
    ∧ (outs1_C c i arg1 harg1 arg2 harg2 arg3 harg3 arg4 harg4 arg5 harg5 arg6 harg6 arg7 harg7 arg8 harg8 arg9 harg9 hc0 hc1 x0 x1 x2 x3 xs0 xs1).2.2.1 = k1_pay3 (k1_pay7 x0 x1 x2 x3 xs0) (k1_pay1 (k1_pay8 x0 x1 x2 x3 xs1))
    ∧ (outs1_C c i arg1 harg1 arg2 harg2 arg3 harg3 arg4 harg4 arg5 harg5 arg6 harg6 arg7 harg7 arg8 harg8 arg9 harg9 hc0 hc1 x0 x1 x2 x3 xs0 xs1).2.2.2.1 = k1_pay7 x0 x1 x2 x3 xs0
    ∧ (outs1_C c i arg1 harg1 arg2 harg2 arg3 harg3 arg4 harg4 arg5 harg5 arg6 harg6 arg7 harg7 arg8 harg8 arg9 harg9 hc0 hc1 x0 x1 x2 x3 xs0 xs1).2.2.2.2 = k1_pay1 (k1_pay8 x0 x1 x2 x3 xs1) := by
  unfold outs1_C outsOf
  dsimp only
  simp only [View.read_writes_eq_canon _ _ _ (covers1_C c i arg1 harg1 arg2 harg2 arg3 harg3 arg4 harg4 arg5 harg5 arg6 harg6 arg7 harg7 arg8 harg8 arg9 harg9 hc0 hc1 x0 x1 x2 x3 xs0 xs1).1,
    View.read_writes_eq_canon _ _ _ (covers1_C c i arg1 harg1 arg2 harg2 arg3 harg3 arg4 harg4 arg5 harg5 arg6 harg6 arg7 harg7 arg8 harg8 arg9 harg9 hc0 hc1 x0 x1 x2 x3 xs0 xs1).2.1,
    View.read_writes_eq_canon _ _ _ (covers1_C c i arg1 harg1 arg2 harg2 arg3 harg3 arg4 harg4 arg5 harg5 arg6 harg6 arg7 harg7 arg8 harg8 arg9 harg9 hc0 hc1 x0 x1 x2 x3 xs0 xs1).2.2.1,
    View.read_writes_eq_canon _ _ _ (covers1_C c i arg1 harg1 arg2 harg2 arg3 harg3 arg4 harg4 arg5 harg5 arg6 harg6 arg7 harg7 arg8 harg8 arg9 harg9 hc0 hc1 x0 x1 x2 x3 xs0 xs1).2.2.2.1,
    View.read_writes_eq_canon _ _ _ (covers1_C c i arg1 harg1 arg2 harg2 arg3 harg3 arg4 harg4 arg5 harg5 arg6 harg6 arg7 harg7 arg8 harg8 arg9 harg9 hc0 hc1 x0 x1 x2 x3 xs0 xs1).2.2.2.2]
  unfold kernelRun1_C
  dsimp only
  sl_unfold_words
  simp only [View.canon_cons_unit_zero (S := S1x128) hz, View.canon_cons_unit_zero (S := S4000x128) hz, View.readAt_eq_ld, harg1.read_unread, harg2.read_unread, harg3.read_unread, harg4.read_unread, harg8.read_unread, harg9.read_unread,
    View.ld_unit_zero (S := S4000x128) hz, View.ld_unit_zero (S := S128x128) hz, View.ld_unit_zero (S := S1x128) hz,
    View.readCov_unit_zero (S := S1x128) _ hz, and_self]

end Pieces

-- What an accumulator holds after point `n`: zero plus the sums of `g` over the blocks of 4000 rows up to `n`.
def psum (g : Fin 20000 → EReal) : (n : ℕ) → n < 5 → EReal
  | 0, _ => Cert.Spec.zeroLit + ∑ r : Fin 4000, g ⟨0 * 4000 + r.val, by have := r.isLt; omega⟩
  | n + 1, h => psum g n (Nat.lt_of_succ_lt h) + ∑ r : Fin 4000, g ⟨(n + 1) * 4000 + r.val, by have := r.isLt; omega⟩

theorem psum_last (g : Fin 20000 → EReal) (h : 4 < 5) : psum g 4 h = ∑ n : Fin 20000, g n := by
  refine Eq.trans ?_ (Cert.LibRealAlgebra.sum_blocks g).symm
  simp only [psum]
  rw [show Cert.Spec.zeroLit = (0 : EReal) from Cert.LibRealAlgebra.ofBits_zero]

variable (V : (c : Dev nD) → (b : Ref sig .tc) → Buf (Elt Ideal) ((c : Thread nD τ).loc b))

abbrev Gu (c : Dev nD) : Cert.Spec.Arr 20000 128 :=
  Cert.Spec.G_u (V c main_arg0) (V c main_v25) (V c main_arg10) (V c main_v18)

-- The body's three payloads over the four input blocks of point `t`.
abbrev P6 (c : Dev nD) (t : Fin cfg1.N) := k1_pay6 (F := Ideal) (iblk1 V c 0 t) (iblk1 V c 1 t) (iblk1 V c 2 t) (iblk1 V c 3 t)
abbrev P7 (c : Dev nD) (t : Fin cfg1.N) := k1_pay7 (F := Ideal) (iblk1 V c 0 t) (iblk1 V c 1 t) (iblk1 V c 2 t) (iblk1 V c 3 t)
abbrev P8 (c : Dev nD) (t : Fin cfg1.N) (a : Vec Ideal S1x128 .f32) :=
  k1_pay1 (k1_pay8 (F := Ideal) (iblk1 V c 0 t) (iblk1 V c 1 t) (iblk1 V c 2 t) (iblk1 V c 3 t) a)

-- What the point before `t` left in the two accumulators.
abbrev prev (c : Dev nD) (t : Fin cfg1.N) :=
  (outsAt1 V c (t.val - 1) (Nat.lt_of_le_of_lt (Nat.sub_le _ _) t.isLt)).2.2.2

theorem acc_first (c : Dev nD) (t : Fin cfg1.N) (h0 : t.val % 5 = 0) (h1 : ¬t.val % 5 = 4) :
    (outsAt1 V c t.val t.isLt).2.2.2.1 = P7 V c t (k1_pay4 (F := Ideal)) ∧ (outsAt1 V c t.val t.isLt).2.2.2.2 = P8 V c t (k1_pay5 (F := Ideal)) := by
  rw [outsAt1_A V c t h0 h1]
  exact (pieces_A _ _).2

theorem acc_next (c : Dev nD) (t : Fin cfg1.N) (h0 : ¬t.val % 5 = 0) :
    (outsAt1 V c t.val t.isLt).2.2.2.1 = P7 V c t (prev V c t).1 ∧ (outsAt1 V c t.val t.isLt).2.2.2.2 = P8 V c t (prev V c t).2 := by
  by_cases h1 : t.val % 5 = 4
  · rw [outsAt1_C V c t h0 h1]
    exact (pieces_C _ _).2.2.2
  · rw [outsAt1_B V c t h0 h1]
    exact (pieces_B _ _).2

theorem stats_last (c : Dev nD) (t : Fin cfg1.N) (h0 : ¬t.val % 5 = 0) (h1 : t.val % 5 = 4) :
    (outsAt1 V c t.val t.isLt).2.1 = k1_pay2 (F := Ideal) (P7 V c t (prev V c t).1)
    ∧ (outsAt1 V c t.val t.isLt).2.2.1 = k1_pay3 (F := Ideal) (P7 V c t (prev V c t).1) (P8 V c t (prev V c t).2) := by
  rw [outsAt1_C V c t h0 h1]
  exact ⟨(pieces_C _ _).2.1, (pieces_C _ _).2.2.1⟩

theorem blk_entry (c : Dev nD) (t : Fin cfg1.N) (r : Fin 4000) (q : Fin 128) (h : t.val * 4000 + r.val < 20000) :
    P6 V c t (ix2 r q) = Gu V c (ix2 (⟨t.val * 4000 + r.val, h⟩ : Fin 20000) q) :=
  (u_blocks V c t r q).trans (congrArg (fun m : Fin 20000 => Gu V c (ix2 m q)) (Fin.ext (by
    show 4000 * t.val + r.val = t.val * 4000 + r.val
    omega)))

theorem blk_sum (c : Dev nD) (t : Fin cfg1.N) (q : Fin 128) (h : t.val < 5) :
    ∑ r : Fin 4000, P6 V c t (ix2 r q)
      = ∑ r : Fin 4000, Gu V c (ix2 (⟨t.val * 4000 + r.val, by have := r.isLt; omega⟩ : Fin 20000) q) :=
  Finset.sum_congr rfl fun r _ => blk_entry V c t r q _

theorem blk_sumsq (c : Dev nD) (t : Fin cfg1.N) (q : Fin 128) (h : t.val < 5) :
    ∑ r : Fin 4000, P6 V c t (ix2 r q) * P6 V c t (ix2 r q)
      = ∑ r : Fin 4000, Gu V c (ix2 (⟨t.val * 4000 + r.val, by have := r.isLt; omega⟩ : Fin 20000) q)
          * Gu V c (ix2 (⟨t.val * 4000 + r.val, by have := r.isLt; omega⟩ : Fin 20000) q) :=
  Finset.sum_congr rfl fun r _ => congrArg₂ (· * ·) (blk_entry V c t r q _) (blk_entry V c t r q _)

-- The invariant: after point `n` the accumulators hold, at column `q`, the fold of the column sums of the activations and of their squares.
theorem acc_inv (c : Dev nD) (q : Fin 128) : ∀ (n : ℕ) (h : n < cfg1.N),
    (outsAt1 V c n h).2.2.2.1 (ix2 0 q) = psum (fun m => Gu V c (ix2 m q)) n (Nat.lt_of_lt_of_eq h N_1)
    ∧ (outsAt1 V c n h).2.2.2.2 (ix2 0 q)
        = psum (fun m => Gu V c (ix2 m q) * Gu V c (ix2 m q)) n (Nat.lt_of_lt_of_eq h N_1)
  | 0, h => by
    obtain ⟨a0, a1⟩ := acc_first V c ⟨0, h⟩ rfl (by dsimp only; omega)
    exact ⟨(congrFun a0 _).trans ((pay7_apply _ _ _ _ _ q).trans
        (congrArg₂ (· + ·) (pay4_apply _) (blk_sum V c ⟨0, h⟩ q (by dsimp only; omega)))),
      (congrFun a1 _).trans ((pay8_apply _ _ _ _ _ q).trans
        (congrArg₂ (· + ·) (pay5_apply _) (blk_sumsq V c ⟨0, h⟩ q (by dsimp only; omega))))⟩
  | n + 1, h => by
    have hN : n + 1 < 5 := Nat.lt_of_lt_of_eq h N_1
    obtain ⟨a0, a1⟩ := acc_next V c ⟨n + 1, h⟩ (by dsimp only; omega)
    obtain ⟨ih0, ih1⟩ := acc_inv c q n (Nat.lt_of_succ_lt h)
    exact ⟨(congrFun a0 _).trans ((pay7_apply _ _ _ _ _ q).trans (congrArg₂ (· + ·) ih0 (blk_sum V c ⟨n + 1, h⟩ q hN))),
      (congrFun a1 _).trans ((pay8_apply _ _ _ _ _ q).trans (congrArg₂ (· + ·) ih1 (blk_sumsq V c ⟨n + 1, h⟩ q hN)))⟩

theorem acc_total (c : Dev nD) (t : Fin cfg1.N) (h4 : t.val % 5 = 4) (q : Fin 128) :
    P7 V c t (prev V c t).1 (ix2 0 q) = ∑ n : Fin 20000, Gu V c (ix2 n q)
    ∧ P8 V c t (prev V c t).2 (ix2 0 q) = ∑ n : Fin 20000, Gu V c (ix2 n q) * Gu V c (ix2 n q) := by
  obtain ⟨a0, a1⟩ := acc_next V c t (by omega)
  obtain ⟨n, hn⟩ := t
  have hn5 : n < 5 := Nat.lt_of_lt_of_eq hn N_1
  obtain rfl : n = 4 := by dsimp only at h4; omega
  obtain ⟨i0, i1⟩ := acc_inv V c q 4 hn
  exact ⟨(congrFun a0 _).symm.trans (i0.trans (psum_last _ _)), (congrFun a1 _).symm.trans (i1.trans (psum_last _ _))⟩

theorem mean_val (c : Dev nD) (t : Fin cfg1.N) (h4 : t.val % 5 = 4) (q : Fin 128) :
    (outsAt1 V c t.val t.isLt).2.1 (ix2 0 q) = Cert.Spec.G_mu (Gu V c) (ix2 0 q) :=
  (congrFun (stats_last V c t (by omega) h4).1 _).trans ((pay2_apply _ q).trans
    (congrArg (Ideal.div · Cert.Spec.nLit) (acc_total V c t h4 q).1))

theorem var_val (c : Dev nD) (t : Fin cfg1.N) (h4 : t.val % 5 = 4) (q : Fin 128) :
    (outsAt1 V c t.val t.isLt).2.2.1 (ix2 0 q) = Cert.Spec.G_var (Gu V c) (ix2 0 q) :=
  (congrFun (stats_last V c t (by omega) h4).2 _).trans ((pay3_apply _ _ q).trans
    (congrArg₂ (fun s ss => Ideal.div ss Cert.Spec.nLit - Ideal.div s Cert.Spec.nLit * Ideal.div s Cert.Spec.nLit)
      (acc_total V c t h4 q).1 (acc_total V c t h4 q).2))

theorem idx_stats : ∀ (t : Fin cfg1.N) (a : Fin 2), win1_5.index t a = 0 ∧ win1_6.index t a = 0 :=
  (by decide +kernel : ∀ (t : Fin grid1.N) (a : Fin 2), _)

theorem flushed5_eq (c : Dev nD) (t : Fin cfg1.N) (hf : (cfg1.win 5).flush t = true) :
    (dat1 (F := Ideal) V c).flushed 5 t = ((cfg1.win 5).blk t).view.read (Elt Ideal) (Cert.Spec.G_mu (Gu V c)) := by
  have e1 := (idx_stats t 1).1
  show (cfg1.win 5).cut (grid1.coords t) ((dat1 V c).after 5 t) = _
  rw [after1_5]
  refine funext fun (j : S1x128.Idx) => ?_
  obtain ⟨p, q, rfl⟩ : ∃ (p : Fin 1) (q : Fin 128), j = ix2 p q := ⟨j 0, j 1, eq_ix2 j⟩
  obtain rfl : p = 0 := Subsingleton.elim _ _
  refine (mean_val V c t ((flush1_5 t).mp hf) q).trans ?_
  exact congrArg (fun k : Fin 128 => Cert.Spec.G_mu (Gu V c) (ix2 0 k))
    (Fin.ext (by show q.val = win1_5.index t (1 : Fin 2) * 128 + 1 * q.val; omega) : q = (((cfg1.win 5).blk t).view.emb (ix2 0 q)) 1)

theorem flushed6_eq (c : Dev nD) (t : Fin cfg1.N) (hf : (cfg1.win 6).flush t = true) :
    (dat1 (F := Ideal) V c).flushed 6 t = ((cfg1.win 6).blk t).view.read (Elt Ideal) (Cert.Spec.G_var (Gu V c)) := by
  have e1 := (idx_stats t 1).2
  show (cfg1.win 6).cut (grid1.coords t) ((dat1 V c).after 6 t) = _
  rw [after1_6]
  refine funext fun (j : S1x128.Idx) => ?_
  obtain ⟨p, q, rfl⟩ : ∃ (p : Fin 1) (q : Fin 128), j = ix2 p q := ⟨j 0, j 1, eq_ix2 j⟩
  obtain rfl : p = 0 := Subsingleton.elim _ _
  refine (var_val V c t ((flush1_6 t).mp hf) q).trans ?_
  exact congrArg (fun k : Fin 128 => Cert.Spec.G_var (Gu V c) (ix2 0 k))
    (Fin.ext (by show q.val = win1_6.index t (1 : Fin 2) * 128 + 1 * q.val; omega) : q = (((cfg1.win 6).blk t).view.emb (ix2 0 q)) 1)

theorem cover5 (i : S1x128.Idx) : ∃ t : Fin cfg1.N, (cfg1.win 5).flush t = true ∧ i ∈ ((cfg1.win 5).blk t).view.set := by
  refine ⟨t1_4, (flush1_5 t1_4).mpr rfl, ?_⟩
  show i ∈ ((View.whole main_v26_1).slice (win1_5.rect t1_4)).set
  rw [View.set_slice_whole]
  exact View.mem_set_unit_zero (funext fun a => by simp only [(idx_stats t1_4 a).1, Nat.zero_mul]) _ i

theorem cover6 (i : S1x128.Idx) : ∃ t : Fin cfg1.N, (cfg1.win 6).flush t = true ∧ i ∈ ((cfg1.win 6).blk t).view.set := by
  refine ⟨t1_4, (flush1_6 t1_4).mpr rfl, ?_⟩
  show i ∈ ((View.whole main_v26_2).slice (win1_6.rect t1_4)).set
  rw [View.set_slice_whole]
  exact View.mem_set_unit_zero (funext fun a => by simp only [(idx_stats t1_4 a).2, Nat.zero_mul]) _ i

end Cert.KernelIdeal.Val.R1

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem arr1_5 (c : Dev nD) : (dat1 (F := Ideal) V c).arrAt 5 cfg1.N
    = Cert.Spec.G_mu (Cert.Spec.G_u (V c main_arg0) (V c main_v25) (V c main_arg10) (V c main_v18)) :=
  (dat1 (F := Ideal) V c).arrAt_eq_of_cover 5 (Cert.Spec.G_mu (R1.Gu V c)) (fun t hf => R1.flushed5_eq V c t hf) R1.cover5

theorem arr1_6 (c : Dev nD) : (dat1 (F := Ideal) V c).arrAt 6 cfg1.N
    = Cert.Spec.G_var (Cert.Spec.G_u (V c main_arg0) (V c main_v25) (V c main_arg10) (V c main_v18)) :=
  (dat1 (F := Ideal) V c).arrAt_eq_of_cover 6 (Cert.Spec.G_var (R1.Gu V c)) (fun t hf => R1.flushed6_eq V c t hf) R1.cover6

end Cert.KernelIdeal.Val

end
-- ==== Proof.ValR1u.lean ====
import proofs.«115762_j58188216926998_1_alg».proof.Proof.KIR1
import proofs.«115762_j58188216926998_1_alg».proof.Proof.ValR1
import proofs.«115762_j58188216926998_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Cert.KernelIdeal Cert.KernelIdeal.Gen Cert.KernelIdeal.Hand
open Idealize.ShloMosaic Idealize.ShloMosaic.TcCoe Idealize.ShloMosaic.ValueIdx Idealize.ShloMosaic.Tactic
open Idealize.ShloMosaic.Pipeline (Dat)

variable (V : (c : Dev nD) → (b : Ref sig .tc) → Buf (Elt Ideal) ((c : Thread nD τ).loc b))

theorem outs1_4_eq (c : Dev nD) (t : Fin cfg1.N) :
    (outsAt1 (F := Ideal) V c t.val t.isLt).1 = k1_pay6 (F := Ideal) (iblk1 V c 0 t) (iblk1 V c 1 t) (iblk1 V c 2 t) (iblk1 V c 3 t) := by
  by_cases h0 : t.val % 5 = 0
  · have h1 : ¬t.val % 5 = 4 := by omega
    rw [outsAt1_A V c t h0 h1]
    exact (R1.pieces_A _ _).1
  · by_cases h1 : t.val % 5 = 4
    · rw [outsAt1_C V c t h0 h1]
      exact (R1.pieces_C _ _).1
    · rw [outsAt1_B V c t h0 h1]
      exact (R1.pieces_B _ _).1

theorem flushed1_4_eq (c : Dev nD) (t : Fin cfg1.N) :
    (dat1 (F := Ideal) V c).flushed 4 t = ((cfg1.win 4).blk t).view.read (Elt Ideal) (Gu V c) := by
  obtain ⟨-, -, -, -, -, -, -, -, e8, e9⟩ := idx_facts1 t
  show (cfg1.win 4).cut (grid1.coords t) ((dat1 V c).after 4 t) = _
  rw [after1_4, outs1_4_eq V c t]
  refine funext fun (j : S4000x128.Idx) => ?_
  show k1_pay6 (F := Ideal) (iblk1 V c 0 t) (iblk1 V c 1 t) (iblk1 V c 2 t) (iblk1 V c 3 t) j = Gu V c (((cfg1.win 4).blk t).view.emb j)
  rw [eq_ix2 j]
  refine (u_blocks V c t (j 0) (j 1)).trans (congrArg (Gu V c) (Shape.idx_ext₂ ?_ ?_))
  · show 4000 * t.val + (j 0).val = win1_4.index t (0 : Fin 2) * 4000 + 1 * (j 0).val
    omega
  · show (j 1).val = win1_4.index t (1 : Fin 2) * 128 + 1 * (j 1).val
    omega

-- Row `r` lies in the block of point `r / 4000`.
theorem cover1_4 (i : S20000x128.Idx) : ∃ t : Fin cfg1.N, (cfg1.win 4).flush t = true ∧ i ∈ ((cfg1.win 4).blk t).view.set := by
  have hi0 : (i 0).val < 20000 := (i 0).isLt
  have hi1 : (i 1).val < 128 := (i 1).isLt
  obtain ⟨t, ht⟩ : ∃ t : Fin cfg1.N, t.val = (i 0).val / 4000 := ⟨⟨_, by show _ < grid1.N; rw [N_1]; omega⟩, rfl⟩
  obtain ⟨-, -, -, -, -, -, -, -, e8, e9⟩ := idx_facts1 t
  refine ⟨t, flush1_4 _, ?_⟩
  show i ∈ ((View.whole main_v26_0).slice (win1_4.rect t)).set
  rw [View.set_slice_whole, Rect.mem_set_unit]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

theorem arr1_4 (c : Dev nD) : (dat1 (F := Ideal) V c).arrAt 4 cfg1.N
    = Cert.Spec.G_u (V c main_arg0) (V c main_v25) (V c main_arg10) (V c main_v18) :=
  (dat1 (F := Ideal) V c).arrAt_eq_of_cover 4 (Gu V c) (fun t _ => flushed1_4_eq V c t) cover1_4

end Cert.KernelIdeal.Val

end
-- ==== Proof.ValKernel.lean ====
import proofs.«115762_j58188216926998_1_alg».proof.Proof.KIRun
import proofs.«115762_j58188216926998_1_alg».proof.Proof.ValHost
import proofs.«115762_j58188216926998_1_alg».proof.Proof.ValR0
import proofs.«115762_j58188216926998_1_alg».proof.Proof.ValR1
import proofs.«115762_j58188216926998_1_alg».proof.Proof.ValR1u
import proofs.«115762_j58188216926998_1_alg».proof.Proof.ValR2

noncomputable section

namespace Cert.KernelIdeal.Val

open Cert.KernelIdeal Cert.KernelIdeal.Gen Cert.KernelIdeal.Hand
open Idealize.ShloMosaic Idealize.ShloMosaic.TcCoe Idealize.SL.Sem
open Cert.Spec (row colRow cell G_dnew G_mg G_u G_mu G_var G_out)

abbrev TF (S : Shape) : Type := (⟨S, .f32⟩ : BufTy).Contents (Elt Ideal)
abbrev TI (S : Shape) : Type := (⟨S, .i32⟩ : BufTy).Contents (Elt Ideal)

def kFS (a0 : TF S20000x128) (a2 : TI S320000) : TF S320000x128 :=
  Host.gather gather_S20000x128_S320000x1_S320000x128_1_0_n_n_0_1_1128 a0 (idxOf a2)

def kMG (a0 : TF S20000x128) (a1 : TF S320000x128) (a2 a3 : TI S320000) (a4 : TF S384x128) (a5 : TF S128) (a6 : TF S128x128)
    (a7 : TF S128) (a8 : TF S128x1) (a9 : TF S1) : TF S320000x128 :=
  G_mg (kFS a0 a2) (kFS a0 a3) a1 a4 (row a5) a6 (row a7) (colRow a8) (cell a9)

def kMS (a0 : TF S20000x128) (a1 : TF S320000x128) (a2 a3 : TI S320000) (a4 : TF S384x128) (a5 : TF S128) (a6 : TF S128x128)
    (a7 : TF S128) (a8 : TF S128x1) (a9 : TF S1) : TF S20000x128 :=
  Host.scatterAdd (F := Ideal) scatter_S20000x128_S320000x1_S320000x128_1_0_0_1
    (broadcastInDim S20000x128 ![] bcast_S_S20000x128 (constant (F := Ideal) S_ .f32 0x00000000#32))
    (broadcastInDim S320000x1 ![0] bcast_S320000_S320000x1_0 a3) (kMG a0 a1 a2 a3 a4 a5 a6 a7 a8 a9)

def kU (a0 : TF S20000x128) (a1 : TF S320000x128) (a2 a3 : TI S320000) (a4 : TF S384x128) (a5 : TF S128) (a6 : TF S128x128)
    (a7 : TF S128) (a8 : TF S128x1) (a9 : TF S1) (a10 : TF S128x128) (a11 : TF S128) : TF S20000x128 :=
  G_u a0 (kMS a0 a1 a2 a3 a4 a5 a6 a7 a8 a9) a10 (row a11)

def kOut1 (a0 : TF S20000x128) (a1 : TF S320000x128) (a2 a3 : TI S320000) (a4 : TF S384x128) (a5 : TF S128) (a6 : TF S128x128)
    (a7 : TF S128) : TF S320000x128 :=
  G_dnew (kFS a0 a2) (kFS a0 a3) a1 a4 (row a5) a6 (row a7)

def kOut0 (a0 : TF S20000x128) (a1 : TF S320000x128) (a2 a3 : TI S320000) (a4 : TF S384x128) (a5 : TF S128) (a6 : TF S128x128)
    (a7 : TF S128) (a8 : TF S128x1) (a9 : TF S1) (a10 : TF S128x128) (a11 a12 a13 : TF S128) (a14 : TF S128x128) (a15 : TF S128) :
    TF S20000x128 :=
  G_out (kU a0 a1 a2 a3 a4 a5 a6 a7 a8 a9 a10 a11) a0 (G_mu (kU a0 a1 a2 a3 a4 a5 a6 a7 a8 a9 a10 a11))
    (G_var (kU a0 a1 a2 a3 a4 a5 a6 a7 a8 a9 a10 a11)) (row a12) (row a13) a14 (row a15)

variable (m : (ℓ : Loc nD τ sig) → Buf (Elt Ideal) ℓ) (ρ : Dev nD → PrngReg) (c : Dev nD)

-- Argument `r` as launched, and the composed values at the launched arguments.
abbrev arg (r : Ref sig .tc) := m ((c : Thread nD τ).loc r)
abbrev mOut1 := kOut1 (arg m c main_arg0) (arg m c main_arg1) (arg m c main_arg2) (arg m c main_arg3) (arg m c main_arg4) (arg m c main_arg5) (arg m c main_arg6) (arg m c main_arg7)
abbrev mMG := kMG (arg m c main_arg0) (arg m c main_arg1) (arg m c main_arg2) (arg m c main_arg3) (arg m c main_arg4) (arg m c main_arg5) (arg m c main_arg6) (arg m c main_arg7) (arg m c main_arg8) (arg m c main_arg9)
abbrev mMS := kMS (arg m c main_arg0) (arg m c main_arg1) (arg m c main_arg2) (arg m c main_arg3) (arg m c main_arg4) (arg m c main_arg5) (arg m c main_arg6) (arg m c main_arg7) (arg m c main_arg8) (arg m c main_arg9)
abbrev mU := kU (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11)

theorem V1_v6 : V1 m ρ c main_v6 = kFS (arg m c main_arg0) (arg m c main_arg2) := after0_v6 (W0 m ρ c)
theorem V1_v13 : V1 m ρ c main_v13 = kFS (arg m c main_arg0) (arg m c main_arg3) := after0_v13 (W0 m ρ c)
theorem V1_arg (r : Ref sig .tc) (h : r ∉ hostOps0_W) : V1 m ρ c r = arg m c r := W1_of m ρ c r h
theorem V1_v14 : V1 m ρ c main_v14 = row (arg m c main_arg5) := (after0_v14 (W0 m ρ c)).trans (reshape_row _)
theorem V1_v15 : V1 m ρ c main_v15 = row (arg m c main_arg7) := (after0_v15 (W0 m ρ c)).trans (reshape_row _)
theorem V1_v16 : V1 m ρ c main_v16 = cell (arg m c main_arg9) := (after0_v16 (W0 m ρ c)).trans (reshape_cell _)
theorem V1_v17 : V1 m ρ c main_v17 = colRow (arg m c main_arg8) := (after0_v17 (W0 m ρ c)).trans (reshape_colRow _)
theorem V1_v18 : V1 m ρ c main_v18 = row (arg m c main_arg11) := (after0_v18 (W0 m ρ c)).trans (reshape_row _)
theorem V1_v19 : V1 m ρ c main_v19 = row (arg m c main_arg15) := (after0_v19 (W0 m ρ c)).trans (reshape_row _)
theorem V1_v20 : V1 m ρ c main_v20 = row (arg m c main_arg12) := (after0_v20 (W0 m ρ c)).trans (reshape_row _)
theorem V1_v21 : V1 m ρ c main_v21 = row (arg m c main_arg13) := (after0_v21 (W0 m ρ c)).trans (reshape_row _)

theorem W2_v22_0 : W2 m ρ c (Proc.devRef .tc main_v22_0) = mOut1 m c :=
  (W2_arr m ρ c 9).trans <| by
  rw [arr0_9,
    V1_v6, V1_v13, V1_arg m ρ c main_arg1 (by decide), V1_arg m ρ c main_arg4 (by decide), V1_v14,
    V1_arg m ρ c main_arg6 (by decide), V1_v15]
  rfl
theorem W2_v22_1 : W2 m ρ c (Proc.devRef .tc main_v22_1) = mMG m c :=
  (W2_arr m ρ c 10).trans <| by
  rw [arr0_10,
    V1_v6, V1_v13, V1_arg m ρ c main_arg1 (by decide), V1_arg m ρ c main_arg4 (by decide), V1_v14,
    V1_arg m ρ c main_arg6 (by decide), V1_v15, V1_v17, V1_v16]
  rfl
theorem W2_arg (r : Ref sig .tc) (h0 : r ∉ hostOps0_W) (h2 : W2 m ρ c (Proc.devRef .tc r) = W1 m ρ c (Proc.devRef .tc r)) :
    W2 m ρ c (Proc.devRef .tc r) = arg m c r := h2.trans (W1_of m ρ c r h0)

theorem V3_v25 : V3 m ρ c main_v25 = mMS m c := by
  show StableHlo.after hostOps1 (W2 m ρ c) (Proc.devRef .tc main_v25) = _
  rw [after1_v25, W2_v22_1, W2_arg m ρ c main_arg3 (by decide) (W2_of_ne m ρ c main_arg3 (by decide))]
  rfl
theorem V3_arg0 : V3 m ρ c main_arg0 = arg m c main_arg0 :=
  (W3_of m ρ c main_arg0 (by decide)).trans (W2_arg m ρ c main_arg0 (by decide) (W2_of_ne m ρ c main_arg0 (by decide)))
theorem V3_arg10 : V3 m ρ c main_arg10 = arg m c main_arg10 :=
  (W3_of m ρ c main_arg10 (by decide)).trans (W2_arg m ρ c main_arg10 (by decide) (W2_of_ne m ρ c main_arg10 (by decide)))
theorem V3_of_V1 (r : Ref sig .tc) (h1 : r ∉ hostOps1_W) (h0 : ∀ w, Pipeline.arrRef spec0 w ≠ r) : V3 m ρ c r = V1 m ρ c r :=
  (W3_of m ρ c r h1).trans (W2_of_ne m ρ c r h0)
theorem V3_v18 : V3 m ρ c main_v18 = row (arg m c main_arg11) := (V3_of_V1 m ρ c main_v18 (by decide) (by decide)).trans (V1_v18 m ρ c)

theorem kU_eq : G_u (V3 m ρ c main_arg0) (V3 m ρ c main_v25) (V3 m ρ c main_arg10) (V3 m ρ c main_v18) = mU m c := by
  rw [V3_arg0, V3_v25, V3_arg10, V3_v18]; rfl
theorem V4_v26_0 : V4 m ρ c main_v26_0 = mU m c :=
  (W4_arr m ρ c 4).trans <| by rw [arr1_4, kU_eq]
theorem V4_v26_1 : V4 m ρ c main_v26_1 = G_mu (mU m c) :=
  (W4_arr m ρ c 5).trans <| by rw [arr1_5, kU_eq]
theorem V4_v26_2 : V4 m ρ c main_v26_2 = G_var (mU m c) :=
  (W4_arr m ρ c 6).trans <| by rw [arr1_6, kU_eq]

theorem V4_arg0 : V4 m ρ c main_arg0 = arg m c main_arg0 := (W4_in m ρ c 0 rfl).trans (V3_arg0 m ρ c)
theorem V4_of_V1 (r : Ref sig .tc) (h1 : r ∉ hostOps1_W) (h0 : ∀ w, Pipeline.arrRef spec0 w ≠ r) (h4 : ∀ w, Pipeline.arrRef spec1 w ≠ r) :
    V4 m ρ c r = V1 m ρ c r := (W4_of_ne m ρ c r h4).trans (V3_of_V1 m ρ c r h1 h0)
theorem V4_v20 : V4 m ρ c main_v20 = row (arg m c main_arg12) := (V4_of_V1 m ρ c main_v20 (by decide) (by decide) (by decide)).trans (V1_v20 m ρ c)
theorem V4_v21 : V4 m ρ c main_v21 = row (arg m c main_arg13) := (V4_of_V1 m ρ c main_v21 (by decide) (by decide) (by decide)).trans (V1_v21 m ρ c)
theorem V4_v19 : V4 m ρ c main_v19 = row (arg m c main_arg15) := (V4_of_V1 m ρ c main_v19 (by decide) (by decide) (by decide)).trans (V1_v19 m ρ c)
theorem V4_arg14 : V4 m ρ c main_arg14 = arg m c main_arg14 :=
  (V4_of_V1 m ρ c main_arg14 (by decide) (by decide) (by decide)).trans (V1_arg m ρ c main_arg14 (by decide))

theorem W5_v27 : W5 m ρ c (Proc.devRef .tc main_v27) = kOut0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W5_arr m ρ c 8).trans <| by
  rw [arr2_8,
    V4_v26_0, V4_v26_1, V4_v26_2,
    V4_arg0, V4_v20, V4_v21, V4_arg14, V4_v19]
  rfl
-- Regions 1 and 2 and the second host stretch pass the updated edge data unchanged.
theorem W5_v22_0 : W5 m ρ c (Proc.devRef .tc main_v22_0) = kOut1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W5_of_ne m ρ c main_v22_0 (by decide)).trans <| (W4_of_ne m ρ c main_v22_0 (by decide)).trans <|
    (W3_of m ρ c main_v22_0 (by decide)).trans (W2_v22_0 m ρ c)

end Cert.KernelIdeal.Val

end
-- ==== Proof.RefRun.lean ====
import proofs.«115762_j58188216926998_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_c (constantI S_ 32 0#32),
    unary main_c main_v0 (broadcastInDim S320000 ![] bcast_S_S320000),
    binary main_arg2 main_v0 main_v1 (cmpi .slt),
    nullary main_c_0 (constantI S_ 32 20000#32),
    unary main_c_0 main_v2 (broadcastInDim S320000 ![] bcast_S_S320000),
    binary main_arg2 main_v2 main_v3 addi,
    ternary main_v1 main_v3 main_arg2 main_v4 select,
    unary main_v4 main_v5 (broadcastInDim S320000x1 ![0] bcast_S320000_S320000x1_0),
    binary main_arg0 main_v5 main_v6 (fun x i => Host.gather gather_S20000x128_S320000x1_S320000x128_1_0_n_n_0_1_1128 x i),
    nullary main_c_1 (constantI S_ 32 0#32),
    unary main_c_1 main_v7 (broadcastInDim S320000 ![] bcast_S_S320000),
    binary main_arg3 main_v7 main_v8 (cmpi .slt),
    nullary main_c_2 (constantI S_ 32 20000#32),
    unary main_c_2 main_v9 (broadcastInDim S320000 ![] bcast_S_S320000),
    binary main_arg3 main_v9 main_v10 addi,
    ternary main_v8 main_v10 main_arg3 main_v11 select,
    unary main_v11 main_v12 (broadcastInDim S320000x1 ![0] bcast_S320000_S320000x1_0),
    binary main_arg0 main_v12 main_v13 (fun x i => Host.gather gather_S20000x128_S320000x1_S320000x128_1_0_n_n_0_1_1128 x i),
    nary ![main_v6, main_v13, main_arg1] main_v14 (fun u => concatenate S320000x384 1 [⟨S320000x128, u 0⟩, ⟨S320000x128, u 1⟩, ⟨S320000x128, u 2⟩] concatenates_S320000x128_S320000x128_S320000x128_S320000x384_d1),
    binary main_v14 main_arg4 main_v15 (fun l r => Host.dotGeneral dot_S320000x384_S384x128_S320000x128_1_0_0_1_n_n none l r),
    unary main_arg5 main_v16 (broadcastInDim S1x128 ![1] bcast_S128_S1x128_1),
    unary main_v16 main_v17 (broadcastInDim S320000x128 ![0, 1] bcast_S1x128_S320000x128_0_1),
    binary main_v15 main_v17 main_v18 addf,
    TRef.nullary main_call0.cst (constant S_ .f32 0x00000000#32),
    TRef.unary main_call0.cst main_call0.v0 (broadcastInDim S320000x128 ![] bcast_S_S320000x128),
    TRef.binary (.of main_v18) main_call0.v0 main_call0.v1 maximumf,
    binary main_v19 main_arg6 main_v20 (fun l r => Host.dotGeneral dot_S320000x128_S128x128_S320000x128_1_0_0_1_n_n none l r),
    unary main_arg7 main_v21 (broadcastInDim S1x128 ![1] bcast_S128_S1x128_1),
    unary main_v21 main_v22 (broadcastInDim S320000x128 ![0, 1] bcast_S1x128_S320000x128_0_1),
    binary main_v20 main_v22 main_v23 addf,
    TRef.unary (.of main_v23) main_call1.v0 Host.negf,
    TRef.unary main_call1.v0 main_call1.v1 Host.exp,
    TRef.nullary main_call1.cst (constant S_ .f32 0x3F800000#32),
    TRef.unary main_call1.cst main_call1.v2 (broadcastInDim S320000x128 ![] bcast_S_S320000x128),
    TRef.binary main_call1.v2 main_call1.v1 main_call1.v3 addf,
    TRef.nullary main_call1.cst_0 (constant S_ .f32 0x3F800000#32),
    TRef.unary main_call1.cst_0 main_call1.v4 (broadcastInDim S320000x128 ![] bcast_S_S320000x128),
    TRef.binary main_call1.v4 main_call1.v3 main_call1.v5 Host.divf,
    TRef.binary (.of main_v23) main_call1.v5 main_call1.v6 mulf,
    binary main_arg1 main_v24 main_v25 addf,
    binary main_v24 main_arg8 main_v26 (fun l r => Host.dotGeneral dot_S320000x128_S128x1_S320000x1_1_0_0_1_n_n none l r),
    unary main_arg9 main_v27 (broadcastInDim S1x1 ![1] bcast_S1_S1x1_1),
    unary main_v27 main_v28 (broadcastInDim S320000x1 ![0, 1] bcast_S1x1_S320000x1_0_1),
    binary main_v26 main_v28 main_v29 addf,
    unary main_v29 main_v30 Host.negf,
    unary main_v30 main_v31 Host.exp,
    nullary main_cst (constant S_ .f32 0x3F800000#32),
    unary main_cst main_v32 (broadcastInDim S320000x1 ![] bcast_S_S320000x1),
    binary main_v32 main_v31 main_v33 addf,
    nullary main_cst_3 (constant S_ .f32 0x3F800000#32),
    unary main_cst_3 main_v34 (broadcastInDim S320000x1 ![] bcast_S_S320000x1),
    binary main_v34 main_v33 main_v35 Host.divf,
    unary main_v35 main_v36 (broadcastInDim S320000x128 ![0, 1] bcast_S320000x1_S320000x128_0_1),
    binary main_v24 main_v36 main_v37 mulf,
    nullary main_cst_4 (constant S_ .f32 0x00000000#32),
    unary main_cst_4 main_v38 (broadcastInDim S20000x128 ![] bcast_S_S20000x128),
    unary main_arg3 main_v39 (broadcastInDim S320000x1 ![0] bcast_S320000_S320000x1_0),
    ternary main_v38 main_v39 main_v37 main_v40 (fun x i u => Host.scatterAdd scatter_S20000x128_S320000x1_S320000x128_1_0_0_1 x i u),
    binary main_v40 main_arg0 main_v41 addf,
    binary main_v41 main_arg10 main_v42 (fun l r => Host.dotGeneral dot_S20000x128_S128x128_S20000x128_1_0_0_1_n_n none l r),
    unary main_arg11 main_v43 (broadcastInDim S1x128 ![1] bcast_S128_S1x128_1),
    unary main_v43 main_v44 (broadcastInDim S20000x128 ![0, 1] bcast_S1x128_S20000x128_0_1),
    binary main_v42 main_v44 main_v45 addf,
    TRef.nullary main_call2.cst (constant S_ .f32 0x00000000#32),
    TRef.unary main_call2.cst main_call2.v0 (broadcastInDim S20000x128 ![] bcast_S_S20000x128),
    TRef.binary (.of main_v45) main_call2.v0 main_call2.v1 maximumf,
    nullary main_cst_5 (constant S_ .f32 0x00000000#32),
    binary main_v46 main_cst_5 main_v47 (fun x v => Host.reduceAdd x v reducesTo_S20000x128_S128_d0 h_S_),
    nullary main_cst_6 (constant S_ .f32 0x469C4000#32),
    unary main_cst_6 main_v48 (broadcastInDim S128 ![] bcast_S_S128),
    binary main_v47 main_v48 main_v49 Host.divf,
    nullary main_c_7 (constantI S_ 32 0#32),
    TRef.nullary main_call3.cst (constant S_ .f32 0x00000000#32),
    TRef.binary (.of main_v46) main_call3.cst main_call3.v0 (fun x v => Host.reduceAdd x v reducesTo_S20000x128_S128_d0 h_S_),
    TRef.unary main_call3.v0 main_call3.v1 (broadcastInDim S1x128 ![1] bcast_S128_S1x128_1),
    TRef.nullary main_call3.cst_0 (constant S_ .f32 0x469C4000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S20000x128 ![0, 1] bcast_S1x128_S20000x128_0_1),
    TRef.binary (.of main_v46) main_call3.v4 main_call3.v5 subf,
    TRef.binary main_call3.v5 main_call3.v5 main_call3.v6 mulf,
    TRef.unary (.of main_c_7) main_call3.v7 (sitofp .f32),
    TRef.nullary main_call3.cst_1 (constant S_ .f32 0x469C4000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S20000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v49 main_v51 (broadcastInDim S1x128 ![1] bcast_S128_S1x128_1),
    unary main_v51 main_v52 (broadcastInDim S20000x128 ![0, 1] bcast_S1x128_S20000x128_0_1),
    binary main_v46 main_v52 main_v53 subf,
    nullary main_cst_8 (constant S_ .f32 0x3727C5AC#32),
    unary main_cst_8 main_v54 (broadcastInDim S128 ![] bcast_S_S128),
    binary main_v50 main_v54 main_v55 addf,
    unary main_v55 main_v56 Host.rsqrt,
    unary main_v56 main_v57 (broadcastInDim S1x128 ![1] bcast_S128_S1x128_1),
    unary main_v57 main_v58 (broadcastInDim S20000x128 ![0, 1] bcast_S1x128_S20000x128_0_1),
    binary main_v53 main_v58 main_v59 mulf,
    unary main_arg12 main_v60 (broadcastInDim S1x128 ![1] bcast_S128_S1x128_1),
    unary main_v60 main_v61 (broadcastInDim S20000x128 ![0, 1] bcast_S1x128_S20000x128_0_1),
    binary main_v59 main_v61 main_v62 mulf,
    unary main_arg13 main_v63 (broadcastInDim S1x128 ![1] bcast_S128_S1x128_1),
    unary main_v63 main_v64 (broadcastInDim S20000x128 ![0, 1] bcast_S1x128_S20000x128_0_1),
    binary main_v62 main_v64 main_v65 addf,
    binary main_v65 main_arg14 main_v66 (fun l r => Host.dotGeneral dot_S20000x128_S128x128_S20000x128_1_0_0_1_n_n none l r),
    unary main_arg15 main_v67 (broadcastInDim S1x128 ![1] bcast_S128_S1x128_1),
    unary main_v67 main_v68 (broadcastInDim S20000x128 ![0, 1] bcast_S1x128_S20000x128_0_1),
    binary main_v66 main_v68 main_v69 addf,
    binary main_v69 main_arg0 main_v70 addf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

-- every operation of the program reads and writes arrays of the program only
theorem ops_sub : (ops : List (HloOp τ sig (Elt F))).Forall fun op => op.bufs ⊆ tcRefs τ sig := by
  simp only [ops, List.forall_cons, List.Forall, nullary_bufs_sub, unary_bufs_sub, binary_bufs_sub, ternary_bufs_sub,
    nary_bufs_sub, and_self]

abbrev C (F : FTy → Type) (S : Shape) (d : EltTy) : Type := (⟨S, d⟩ : BufTy).Contents (Elt F)

section Stages

def bias (b : C F S128 .f32) : C F S320000x128 .f32 :=
  broadcastInDim S320000x128 ![0, 1] bcast_S1x128_S320000x128_0_1 (broadcastInDim S1x128 ![1] bcast_S128_S1x128_1 b)

def bias1 (b : C F S1 .f32) : C F S320000x1 .f32 :=
  broadcastInDim S320000x1 ![0, 1] bcast_S1x1_S320000x1_0_1 (broadcastInDim S1x1 ![1] bcast_S1_S1x1_1 b)

def hidOf (fs fd d : C F S320000x128 .f32) (W1 : C F S384x128 .f32) (b1 : C F S128 .f32) : C F S320000x128 .f32 :=
  maximumf (addf (Host.dotGeneral dot_S320000x384_S384x128_S320000x128_1_0_0_1_n_n none
      (concatenate S320000x384 1 [⟨S320000x128, fs⟩, ⟨S320000x128, fd⟩, ⟨S320000x128, d⟩]
        concatenates_S320000x128_S320000x128_S320000x128_S320000x384_d1) W1) (bias b1))
    (broadcastInDim S320000x128 ![] bcast_S_S320000x128 (constant S_ .f32 0x00000000#32))

def preOf (H : C F S320000x128 .f32) (W2 : C F S128x128 .f32) (b2 : C F S128 .f32) : C F S320000x128 .f32 :=
  addf (Host.dotGeneral dot_S320000x128_S128x128_S320000x128_1_0_0_1_n_n none H W2) (bias b2)

def siluOf (X : C F S320000x128 .f32) : C F S320000x128 .f32 :=
  mulf X (Host.divf (broadcastInDim S320000x128 ![] bcast_S_S320000x128 (constant S_ .f32 0x3F800000#32))
    (addf (broadcastInDim S320000x128 ![] bcast_S_S320000x128 (constant S_ .f32 0x3F800000#32)) (Host.exp (Host.negf X))))

def gateOf (M : C F S320000x128 .f32) (Ws : C F S128x1 .f32) (bs : C F S1 .f32) : C F S320000x1 .f32 :=
  Host.divf (broadcastInDim S320000x1 ![] bcast_S_S320000x1 (constant S_ .f32 0x3F800000#32))
    (addf (broadcastInDim S320000x1 ![] bcast_S_S320000x1 (constant S_ .f32 0x3F800000#32))
      (Host.exp (Host.negf (addf (Host.dotGeneral dot_S320000x128_S128x1_S320000x1_1_0_0_1_n_n none M Ws) (bias1 bs)))))

def gated (M : C F S320000x128 .f32) (g : C F S320000x1 .f32) : C F S320000x128 .f32 :=
  mulf M (broadcastInDim S320000x128 ![0, 1] bcast_S320000x1_S320000x128_0_1 g)

def rowcast (b : C F S128 .f32) : C F S20000x128 .f32 :=
  broadcastInDim S20000x128 ![0, 1] bcast_S1x128_S20000x128_0_1 (broadcastInDim S1x128 ![1] bcast_S128_S1x128_1 b)

def colsum (x : C F S20000x128 .f32) : C F S128 .f32 :=
  Host.reduceAdd x (constant S_ .f32 0x00000000#32) reducesTo_S20000x128_S128_d0 h_S_

def uOf (feat MS : C F S20000x128 .f32) (U1 : C F S128x128 .f32) (bu1 : C F S128 .f32) : C F S20000x128 .f32 :=
  maximumf (addf (Host.dotGeneral dot_S20000x128_S128x128_S20000x128_1_0_0_1_n_n none (addf MS feat) U1) (rowcast bu1))
    (broadcastInDim S20000x128 ![] bcast_S_S20000x128 (constant S_ .f32 0x00000000#32))

def meanOf (U : C F S20000x128 .f32) : C F S128 .f32 :=
  Host.divf (colsum U) (broadcastInDim S128 ![] bcast_S_S128 (constant S_ .f32 0x469C4000#32))

def divisor : C F S_ .f32 := subf (constant S_ .f32 0x469C4000#32) (sitofp .f32 (constantI S_ 32 0#32))

def devOf (U : C F S20000x128 .f32) : C F S20000x128 .f32 :=
  subf U (broadcastInDim S20000x128 ![0, 1] bcast_S1x128_S20000x128_0_1
    (Host.divf (broadcastInDim S1x128 ![1] bcast_S128_S1x128_1 (colsum U)) (broadcastInDim S1x128 ![] bcast_S_S1x128 (constant S_ .f32 0x469C4000#32))))

def varOf (U : C F S20000x128 .f32) : C F S128 .f32 :=
  select (broadcastInDim S128 ![] bcast_S_S128 (cmpf .ogt (divisor (F := F)) (constant S_ .f32 0x00000000#32)))
    (Host.divf (colsum (mulf (devOf U) (devOf U))) (broadcastInDim S128 ![] bcast_S_S128 (divisor (F := F))))
    (broadcastInDim S128 ![] bcast_S_S128 (constant S_ .f32 0x7FC00000#32))

def outOf (U feat : C F S20000x128 .f32) (mean var gamma beta : C F S128 .f32) (U2 : C F S128x128 .f32)
    (bu2 : C F S128 .f32) : C F S20000x128 .f32 :=
  addf (addf (Host.dotGeneral dot_S20000x128_S128x128_S20000x128_1_0_0_1_n_n none
    (addf (mulf (mulf (subf U (rowcast mean))
      (rowcast (Host.rsqrt (addf var (broadcastInDim S128 ![] bcast_S_S128 (constant S_ .f32 0x3727C5AC#32))))))
      (rowcast gamma)) (rowcast beta)) U2) (rowcast bu2)) feat

variable (a0 : C F S20000x128 .f32) (a1 : C F S320000x128 .f32) (a2 : C F S320000 .i32) (a3 : C F S320000 .i32) (a4 : C F S384x128 .f32) (a5 : C F S128 .f32)
  (a6 : C F S128x128 .f32) (a7 : C F S128 .f32) (a8 : C F S128x1 .f32) (a9 : C F S1 .f32) (a10 : C F S128x128 .f32) (a11 : C F S128 .f32)
  (a12 : C F S128 .f32) (a13 : C F S128 .f32) (a14 : C F S128x128 .f32) (a15 : C F S128 .f32)

def res_idx (i : C F S320000 .i32) : C F S320000x1 .i32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 20000#32))) i)

def res_v6 : C F S320000x128 .f32 :=
  Host.gather gather_S20000x128_S320000x1_S320000x128_1_0_n_n_0_1_1128 a0 (res_idx (F := F) a2)

def res_v13 : C F S320000x128 .f32 :=
  Host.gather gather_S20000x128_S320000x1_S320000x128_1_0_n_n_0_1_1128 a0 (res_idx (F := F) a3)

def res_msg : C F S320000x128 .f32 := siluOf (preOf (hidOf (res_v6 a0 a2) (res_v13 a0 a3) a1 a4 a5) a6 a7)

def res_mg : C F S320000x128 .f32 :=
  gated (res_msg a0 a1 a2 a3 a4 a5 a6 a7) (gateOf (res_msg a0 a1 a2 a3 a4 a5 a6 a7) a8 a9)

def res_ms : C F S20000x128 .f32 :=
  Host.scatterAdd scatter_S20000x128_S320000x1_S320000x128_1_0_0_1
    (broadcastInDim S20000x128 ![] bcast_S_S20000x128 (constant S_ .f32 0x00000000#32))
    (broadcastInDim S320000x1 ![0] bcast_S320000_S320000x1_0 a3) (res_mg a0 a1 a2 a3 a4 a5 a6 a7 a8 a9)

def res_u : C F S20000x128 .f32 := uOf a0 (res_ms a0 a1 a2 a3 a4 a5 a6 a7 a8 a9) a10 a11

def res_out0 : C F S20000x128 .f32 :=
  outOf (res_u a0 a1 a2 a3 a4 a5 a6 a7 a8 a9 a10 a11) a0 (meanOf (res_u a0 a1 a2 a3 a4 a5 a6 a7 a8 a9 a10 a11))
    (varOf (res_u a0 a1 a2 a3 a4 a5 a6 a7 a8 a9 a10 a11)) a12 a13 a14 a15

def res_out1 (_a8 : C F S128x1 .f32) (_a9 : C F S1 .f32) (_a10 : C F S128x128 .f32) (_a11 _a12 _a13 : C F S128 .f32)
    (_a14 : C F S128x128 .f32) (_a15 : C F S128 .f32) : C F S320000x128 .f32 :=
  addf a1 (res_msg a0 a1 a2 a3 a4 a5 a6 a7)

end Stages

set_option maxHeartbeats 46000000 in
theorem after_v70 (V : Valuation τ sig (Elt F)) :
    after ops V (Proc.devRef .tc main_v70) = res_out0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  after_results_simp <;> rfl

theorem after_v25 (V : Valuation τ sig (Elt F)) :
    after ops V (Proc.devRef .tc main_v25) = res_out1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  after_results_simp <;> rfl

set_option maxHeartbeats 46000000 in
-- no operation of the program writes an argument array
theorem after_args (V : Valuation τ sig (Elt F)) :
    [main_arg0, main_arg1, main_arg2, main_arg3, main_arg4, main_arg5, main_arg6, main_arg7, main_arg8, main_arg9, main_arg10, main_arg11, main_arg12, main_arg13, main_arg14, main_arg15].Forall fun r =>
      after ops V (Proc.devRef .tc r) = V (Proc.devRef .tc r) := by
  refine ⟨?_, ?_, ?_, ?_, ?_, ?_, ?_, ?_, ?_, ?_, ?_, ?_, ?_, ?_, ?_, ?_⟩ <;> (show _ = _) <;> after_results_simp

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v70) = res_out0 (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v25) = res_out1 (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
      let ⟨k0, k1, k2, k3, k4, k5, k6, k7, k8, k9, k10, k11, k12, k13, k14, k15⟩ := after_args (launchContents m c)
      ⟨(h c main_v70).trans (after_v70 (launchContents m c)), (h c main_v25).trans (after_v25 (launchContents m c)),
        (h c main_arg0).trans k0, (h c main_arg1).trans k1, (h c main_arg2).trans k2, (h c main_arg3).trans k3, (h c main_arg4).trans k4, (h c main_arg5).trans k5, (h c main_arg6).trans k6, (h c main_arg7).trans k7, (h c main_arg8).trans k8, (h c main_arg9).trans k9, (h c main_arg10).trans k10, (h c main_arg11).trans k11, (h c main_arg12).trans k12, (h c main_arg13).trans k13, (h c main_arg14).trans k14, (h c main_arg15).trans k15⟩)
    (run_seq scopedRefs_eq scopedSems_eq defs main (fun _ => ops) main_eq (fun _ => ops_sub) m ρ)

end Cert.ReferenceIdeal.Hand

end
-- ==== Proof.SpecReal.lean ====
import proofs.«115762_j58188216926998_1_alg».proof.Proof.Spec
import proofs.«115762_j58188216926998_1_alg».proof.Proof.LibRealAlgebra

noncomputable section

namespace Cert.Spec

open Idealize.ShloMosaic Idealize.ShloMosaic.ValueIdx Cert.LibRealAlgebra

theorem zeroLit_real : IsReal zeroLit := isReal_ofBits_zero

section Edge
variable {fs fd d : Arr 320000 128} {W1 : Arr 384 128} {b1 : Arr 1 128} {W2 : Arr 128 128} {b2 : Arr 1 128}
  {ws : Arr 1 128} {bs : Arr 1 1}
  (hfs : ∀ i, IsReal (fs i)) (hfd : ∀ i, IsReal (fd i)) (hd : ∀ i, IsReal (d i)) (hW1 : ∀ i, IsReal (W1 i))
  (hb1 : ∀ i, IsReal (b1 i)) (hW2 : ∀ i, IsReal (W2 i)) (hb2 : ∀ i, IsReal (b2 i)) (hws : ∀ i, IsReal (ws i))
  (hbs : ∀ i, IsReal (bs i))

include hfs hfd hd hW1 hb1

theorem hid_real (e : Fin 320000) (j : Fin 128) : IsReal (hid fs fd d W1 b1 e j) := by
  unfold hid
  exact ((((IsReal.sum_univ _ fun _ => (hfs _).mul (hW1 _)).add
    (IsReal.sum_univ _ fun _ => (hfd _).mul (hW1 _))).add
    (IsReal.sum_univ _ fun _ => (hd _).mul (hW1 _))).add (hb1 _)).max zeroLit_real

include hW2 hb2

theorem pre_real (e : Fin 320000) (j : Fin 128) : IsReal (pre fs fd d W1 b1 W2 b2 e j) := by
  unfold pre
  exact (IsReal.sum_univ _ fun k => (hid_real hfs hfd hd hW1 hb1 e k).mul (hW2 _)).add (hb2 _)

theorem msg_real (e : Fin 320000) (j : Fin 128) : IsReal (msg fs fd d W1 b1 W2 b2 e j) := by
  unfold msg
  exact (pre_real hfs hfd hd hW1 hb1 hW2 hb2 e j).mul (pre_real hfs hfd hd hW1 hb1 hW2 hb2 e j).logistic

include hws hbs

theorem gate_real (e : Fin 320000) : IsReal (gate fs fd d W1 b1 W2 b2 ws bs e) := by
  unfold gate
  exact ((IsReal.sum_univ _ fun k => (msg_real hfs hfd hd hW1 hb1 hW2 hb2 e k).mul (hws _)).add (hbs _)).logistic

theorem G_mg_real : ∀ i, IsReal (G_mg fs fd d W1 b1 W2 b2 ws bs i) := fun i => by
  unfold G_mg
  exact (msg_real hfs hfd hd hW1 hb1 hW2 hb2 (i 0) (i 1)).mul (gate_real hfs hfd hd hW1 hb1 hW2 hb2 hws hbs (i 0))

end Edge

section Node
variable {feat msum : Arr 20000 128} {U1 : Arr 128 128} {bu1 : Arr 1 128}

theorem G_u_real (hfeat : ∀ i, IsReal (feat i)) (hmsum : ∀ i, IsReal (msum i)) (hU1 : ∀ i, IsReal (U1 i))
    (hbu1 : ∀ i, IsReal (bu1 i)) : ∀ i, IsReal (G_u feat msum U1 bu1 i) := fun i => by
  unfold G_u
  exact ((IsReal.sum_univ _ fun _ => ((hfeat _).add (hmsum _)).mul (hU1 _)).add (hbu1 _)).max zeroLit_real

end Node

section Rows

theorem row_real {v : (⟨1, ![128]⟩ : Shape).Idx → EReal} (hv : ∀ i, IsReal (v i)) : ∀ i, IsReal (row v i) :=
  fun _ => hv _

theorem colRow_real {v : Arr 128 1} (hv : ∀ i, IsReal (v i)) : ∀ i, IsReal (colRow v i) :=
  fun _ => hv _

theorem cell_real {v : (⟨1, ![1]⟩ : Shape).Idx → EReal} (hv : ∀ i, IsReal (v i)) : ∀ i, IsReal (cell v i) :=
  fun _ => hv _

end Rows

end Cert.Spec

end
-- ==== Proof.LibAllReal.lean ====
import Idealize.ShloMosaic.PureOps.Ideal
import Idealize.ShloMosaic.PureOps.Ideal.Laws
import Idealize.ShloMosaic.PureOps.Vector
import Idealize.ShloMosaic.PureOps.Contract
import Idealize.ShloMosaic.PureOps.ShapeOps
import Idealize.ShloMosaic.Lib.IdealHost
import Idealize.ShloMosaic.Lib.ReduceAll
import Mathlib.Data.EReal.Basic
import Mathlib.Data.EReal.Operations
import Mathlib.Data.EReal.Inv
import proofs.«115762_j58188216926998_1_alg».proof.Proof.LibRealAlgebra

namespace Cert.LibAllReal

open Idealize.ShloMosaic Cert.LibRealAlgebra

def AllReal {S : Shape} (v : S.Idx → EReal) : Prop := ∀ i, ∃ r : ℝ, v i = (r : EReal)

namespace AllReal

variable {φ : FTy}

theorem gather {s si t : Shape} {w : Nat} (d : GatherDims s si t) {x : s.Idx → EReal} (idx : IVec si w)
    (hx : AllReal x) : AllReal (Host.gather d x idx) :=
  fun j => hx (d.operandIdx j idx)

theorem broadcastInDim {s t : Shape} (dims : Fin s.rank → Fin t.rank) (h : s.BroadcastsInDim t dims)
    {x : s.Idx → EReal} (hx : AllReal x) : AllReal (Idealize.ShloMosaic.broadcastInDim t dims h x) :=
  fun _ => hx _

theorem constant_zero (S : Shape) : AllReal (Idealize.ShloMosaic.constant (F := Ideal) S .f32 0x00000000#32) :=
  fun _ => isReal_ofBits_zero

theorem scatterAdd {s si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (x i + ∑ j ∈ Finset.univ.filter (fun j => d.resultIdx? j idx = some i), upd j)
  exact IsReal.add (hx i) (IsReal.sum _ _ fun j _ => hu j)

end AllReal

theorem ofBits_inf_f32 : Ideal.ofBits .f32 0x7F800000#32 = ⊤ := by simp [Ideal.ofBits, Ideal.ieee]

-- an extended real whose absolute value is below +∞ is neither infinity
theorem isReal_of_abs_lt_top {x : EReal} (h : max x (-x) < ⊤) : IsReal x := by
  induction x using EReal.rec with
  | bot => exact absurd h (by simp)
  | coe r => exact ⟨r, rfl⟩
  | top => exact absurd h (by simp)

theorem allReal_of_all_abs_lt_inf {S s₀ t u : Shape} {axes : List (Fin S.rank)} [Subsingleton t.Idx]
    (x : FVec Ideal S .f32) (dims : Fin s₀.rank → Fin S.rank) (hb : s₀.BroadcastsInDim S dims)
    (init : u.Idx → BitVec 1) (hr : S.ReducesTo axes t) (hu : 0 < u.numel) (j : t.Idx)
    (e : Host.reduce IntOp.andi
          (cmpf .olt (Host.absf x) (broadcastInDim S dims hb (constant s₀ .f32 0x7F800000#32))) init hr hu j = 1#1) :
    AllReal x := by
  intro i
  have hi := Host.reduce_andi_all _ init hr hu j e i
  have hlt : max (x i) (-(x i)) < ⊤ := by
    have h2 : Ideal.cmp .olt (max (x i) (-(x i))) (Ideal.ofBits .f32 0x7F800000#32) = 1#1 := hi
    rw [ofBits_inf_f32] at h2
    unfold Ideal.cmp at h2
    by_contra hn
    simp [hn] at h2
  exact isReal_of_abs_lt_top hlt

end Cert.LibAllReal
-- ==== Proof.RefStageEdge.lean ====
import proofs.«115762_j58188216926998_1_alg».proof.Proof.RefRun
import proofs.«115762_j58188216926998_1_alg».proof.Proof.Spec
import proofs.«115762_j58188216926998_1_alg».proof.Proof.LibRealAlgebra
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

noncomputable section

namespace Cert.ReferenceIdeal.Hand.Stage

open Cert.ReferenceIdeal Idealize.ShloMosaic Idealize.ShloMosaic.ValueIdx
open scoped BigOperators
open Facts₀ Facts

-- a plain matrix product read at an index is the sum over the contracted coordinate
theorem dot_apply {A K B : ℕ} (D : DotDims ⟨2, ![A, K]⟩ ⟨2, ![K, B]⟩ ⟨2, ![A, B]⟩) (h : D = DotDims.plain A K B)
    (l : FVec Ideal ⟨2, ![A, K]⟩ .f32) (r : FVec Ideal ⟨2, ![K, B]⟩ .f32) (p : Fin A) (q : Fin B) :
    Host.dotGeneral D none l r (ix2 p q) = ∑ k : Fin K, l (ix2 p k) * r (ix2 k q) := by
  subst h; exact StackMember.dotGeneral_plain_apply none l r p q

variable [Facts]

abbrev EdgeArr (S : Shape) : Type := (⟨S, .f32⟩ : BufTy).Contents (Elt Ideal)

theorem splat_apply {T : Shape} (h : S_.BroadcastsInDim T ![]) (w : BitVec 32) (i : T.Idx) :
    broadcastInDim (s := S_) (α := Ideal .f32) T ![] h (constant (F := Ideal) S_ .f32 w) i = Ideal.ofBits .f32 w := by
  rw [broadcastInDim_scalar_apply]; rfl

theorem bias_apply (b : EdgeArr S128) (e : Fin 320000) (j : Fin 128) : bias b (ix2 e j) = b (ix1 j) := by
  unfold bias
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl)]

theorem bias1_apply (b : EdgeArr S1) (e : Fin 320000) (z : Fin 1) : bias1 b (ix2 e z) = b (ix1 0) := by
  unfold bias1
  rw [broadcastInDim_apply _ _ _ _ (ix2 (0 : Fin 1) (0 : Fin 1)) (fun a => by match a with | ⟨0, _⟩ => rfl | ⟨1, _⟩ => rfl),
    broadcastInDim_apply _ _ _ _ (ix1 (0 : Fin 1)) (fun a => by match a with | ⟨0, _⟩ => rfl)]

theorem col_apply (g : EdgeArr S320000x1) (e : Fin 320000) (j : Fin 128) :
    (broadcastInDim (s := S320000x1) (α := Ideal .f32) S320000x128 ![0, 1] bcast_S320000x1_S320000x128_0_1 g) (ix2 e j) = g (ix2 e 0) := by
  rw [broadcastInDim_apply _ _ _ _ (ix2 e (0 : Fin 1)) (fun a => by match a with | ⟨0, _⟩ => rfl | ⟨1, _⟩ => rfl)]

theorem cat_band0 (x0 x1 x2 : EdgeArr S320000x128) (e : Fin 320000) (c : Fin 128) :
    (concatenate (α := Ideal .f32) S320000x384 1 [⟨S320000x128, x0⟩, ⟨S320000x128, x1⟩, ⟨S320000x128, x2⟩] concatenates_S320000x128_S320000x128_S320000x128_S320000x384_d1) (ix2 e (⟨c.val, by omega⟩ : Fin 384)) = x0 (ix2 e c) :=
  concatenate_apply_piece (t := S320000x384) 1 [⟨S320000x128, x0⟩, ⟨S320000x128, x1⟩, ⟨S320000x128, x2⟩] concatenates_S320000x128_S320000x128_S320000x128_S320000x384_d1 (ix2 e (⟨c.val, by omega⟩ : Fin 384)) 0 (by simp) S320000x128 x0 rfl rfl 0 (by simp) (ix2 e c)
    (fun b hb => by match b with | ⟨0, _⟩ => rfl | ⟨1, _⟩ => exact absurd rfl hb) (by simp)

theorem cat_band1 (x0 x1 x2 : EdgeArr S320000x128) (e : Fin 320000) (c : Fin 128) :
    (concatenate (α := Ideal .f32) S320000x384 1 [⟨S320000x128, x0⟩, ⟨S320000x128, x1⟩, ⟨S320000x128, x2⟩] concatenates_S320000x128_S320000x128_S320000x128_S320000x384_d1) (ix2 e (⟨128 + c.val, by omega⟩ : Fin 384)) = x1 (ix2 e c) :=
  concatenate_apply_piece (t := S320000x384) 1 [⟨S320000x128, x0⟩, ⟨S320000x128, x1⟩, ⟨S320000x128, x2⟩] concatenates_S320000x128_S320000x128_S320000x128_S320000x384_d1 (ix2 e (⟨128 + c.val, by omega⟩ : Fin 384)) 1 (by simp) S320000x128 x1 rfl rfl 128 (by simp) (ix2 e c)
    (fun b hb => by match b with | ⟨0, _⟩ => rfl | ⟨1, _⟩ => exact absurd rfl hb) (by simp)

theorem cat_band2 (x0 x1 x2 : EdgeArr S320000x128) (e : Fin 320000) (c : Fin 128) :
    (concatenate (α := Ideal .f32) S320000x384 1 [⟨S320000x128, x0⟩, ⟨S320000x128, x1⟩, ⟨S320000x128, x2⟩] concatenates_S320000x128_S320000x128_S320000x128_S320000x384_d1) (ix2 e (⟨256 + c.val, by omega⟩ : Fin 384)) = x2 (ix2 e c) :=
  concatenate_apply_piece (t := S320000x384) 1 [⟨S320000x128, x0⟩, ⟨S320000x128, x1⟩, ⟨S320000x128, x2⟩] concatenates_S320000x128_S320000x128_S320000x128_S320000x384_d1 (ix2 e (⟨256 + c.val, by omega⟩ : Fin 384)) 2 (by simp) S320000x128 x2 rfl rfl 256 (by simp) (ix2 e c)
    (fun b hb => by match b with | ⟨0, _⟩ => rfl | ⟨1, _⟩ => exact absurd rfl hb) (by simp)

theorem hid_eq (fs fd d : EdgeArr S320000x128) (W1 : EdgeArr S384x128) (b1 : EdgeArr S128) :
    hidOf fs fd d W1 b1 = fun i => Cert.Spec.hid fs fd d W1 (Cert.Spec.row b1) (i 0) (i 1) := by
  funext i
  obtain ⟨e, j, rfl⟩ : ∃ (e : Fin 320000) (j : Fin 128), i = ix2 e j := ⟨i 0, i 1, eq_ix2 i⟩
  show _ = Cert.Spec.hid fs fd d W1 (Cert.Spec.row b1) e j
  unfold hidOf
  rw [maximumf_apply, addf_apply, splat_apply, bias_apply,
    dot_apply _ (by rfl), LibRealAlgebra.sum_split3]
  simp only [cat_band0, cat_band1, cat_band2]
  rfl

theorem pre_eq (H : EdgeArr S320000x128) (W2 : EdgeArr S128x128) (b2 : EdgeArr S128) :
    preOf H W2 b2 = fun i => (∑ k : Fin 128, H (ix2 (i 0) k) * W2 (ix2 k (i 1))) + Cert.Spec.row b2 (ix2 0 (i 1)) := by
  funext i
  obtain ⟨e, j, rfl⟩ : ∃ (e : Fin 320000) (j : Fin 128), i = ix2 e j := ⟨i 0, i 1, eq_ix2 i⟩
  unfold preOf
  rw [addf_apply, bias_apply, dot_apply _ (by rfl)]
  rfl

theorem silu_eq (X : EdgeArr S320000x128) : siluOf X = fun i => X i * Ideal.logistic (X i) := by
  funext i
  unfold siluOf
  rw [mulf_apply, hostDivf_apply, addf_apply, splat_apply, LibRealAlgebra.ofBits_one]
  rfl

theorem dnew_eq (d M : EdgeArr S320000x128) :
    (addf (F := Ideal) (s := S320000x128) (φ := .f32) d M) = fun i => d i + M i := rfl

theorem gate_eq (M : EdgeArr S320000x128) (Ws : EdgeArr S128x1) (bs : EdgeArr S1) :
    gateOf M Ws bs
      = fun i => Ideal.logistic ((∑ k : Fin 128, M (ix2 (i 0) k) * Cert.Spec.colRow Ws (ix2 0 k)) + Cert.Spec.cell bs (ix2 0 0)) := by
  funext i
  obtain ⟨e, z, rfl⟩ : ∃ (e : Fin 320000) (z : Fin 1), i = ix2 e z := ⟨i 0, i 1, eq_ix2 i⟩
  obtain rfl : z = 0 := Subsingleton.elim _ _
  show _ = Ideal.logistic ((∑ k : Fin 128, M (ix2 e k) * Cert.Spec.colRow Ws (ix2 0 k)) + Cert.Spec.cell bs (ix2 0 0))
  unfold gateOf
  rw [hostDivf_apply, addf_apply, splat_apply, LibRealAlgebra.ofBits_one]
  show Ideal.div _ (_ + Ideal.exp (-((Host.dotGeneral (F := Ideal) (φ₁ := .f32) (φ₂ := .f32) dot_S320000x128_S128x1_S320000x1_1_0_0_1_n_n none M Ws) (ix2 e 0) + bias1 bs (ix2 e 0)))) = _
  rw [bias1_apply, dot_apply _ (by rfl)]
  rfl

theorem mg_eq (M : EdgeArr S320000x128) (g : EdgeArr S320000x1) : gated M g = fun i => M i * g (ix2 (i 0) 0) := by
  funext i
  obtain ⟨e, j, rfl⟩ : ∃ (e : Fin 320000) (j : Fin 128), i = ix2 e j := ⟨i 0, i 1, eq_ix2 i⟩
  unfold gated
  rw [mulf_apply, col_apply]

theorem edge_dnew (fs fd d : EdgeArr S320000x128) (W1 : EdgeArr S384x128) (b1 : EdgeArr S128) (W2 : EdgeArr S128x128) (b2 : EdgeArr S128) :
    addf (F := Ideal) (s := S320000x128) (φ := .f32) d (siluOf (preOf (hidOf fs fd d W1 b1) W2 b2))
      = Cert.Spec.G_dnew fs fd d W1 (Cert.Spec.row b1) W2 (Cert.Spec.row b2) := by
  rw [hid_eq, pre_eq, silu_eq, dnew_eq]
  rfl

theorem edge_mg (fs fd d : EdgeArr S320000x128) (W1 : EdgeArr S384x128) (b1 : EdgeArr S128) (W2 : EdgeArr S128x128) (b2 : EdgeArr S128)
    (Ws : EdgeArr S128x1) (bs : EdgeArr S1) :
    gated (siluOf (preOf (hidOf fs fd d W1 b1) W2 b2)) (gateOf (siluOf (preOf (hidOf fs fd d W1 b1) W2 b2)) Ws bs)
      = Cert.Spec.G_mg fs fd d W1 (Cert.Spec.row b1) W2 (Cert.Spec.row b2) (Cert.Spec.colRow Ws) (Cert.Spec.cell bs) := by
  rw [hid_eq, pre_eq, silu_eq, gate_eq, mg_eq]
  rfl

end Cert.ReferenceIdeal.Hand.Stage

end
-- ==== Proof.RefStageNode.lean ====
import proofs.«115762_j58188216926998_1_alg».proof.Proof.RefRun
import proofs.«115762_j58188216926998_1_alg».proof.Proof.Spec
import proofs.«115762_j58188216926998_1_alg».proof.Proof.LibRealAlgebra
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

noncomputable section

namespace Cert.ReferenceIdeal.Hand.Stage

open Cert.ReferenceIdeal Idealize.ShloMosaic Idealize.ShloMosaic.ValueIdx Cert.LibRealAlgebra
open scoped BigOperators

variable [Facts]
open Facts₀ Facts

abbrev NodeArr (S : Shape) : Type := (⟨S, .f32⟩ : BufTy).Contents (Elt Ideal)

-- a plain matrix product read at an index is the sum over the contracted coordinate
theorem node_dot_apply (l : NodeArr S20000x128) (r : NodeArr S128x128) (p : Fin 20000) (q : Fin 128) :
    Host.dotGeneral (F := Ideal) (φ₁ := .f32) (φ₂ := .f32) dot_S20000x128_S128x128_S20000x128_1_0_0_1_n_n none l r (ix2 p q)
      = ∑ k : Fin 128, l (ix2 p k) * r (ix2 k q) :=
  StackMember.dotGeneral_plain_apply none l r p q

theorem node_rowcast_apply (b : NodeArr S128) (p : Fin 20000) (q : Fin 128) : rowcast b (ix2 p q) = b (ix1 q) := by
  refine (broadcastInDim_apply ![0, 1] bcast_S1x128_S20000x128_0_1 _ (ix2 p q) (ix2 (0 : Fin 1) q) (fun a => by
    match a with
    | ⟨0, _⟩ => rfl
    | ⟨1, _⟩ => rfl)).trans ?_
  exact broadcastInDim_apply ![1] bcast_S128_S1x128_1 b (ix2 (0 : Fin 1) q) (ix1 q) (fun a => by
    match a with
    | ⟨0, _⟩ => rfl)

-- a column sum from the zero constant is the plain sum down the column
theorem node_colsum_apply (x : NodeArr S20000x128) (q : Fin 128) : colsum x (ix1 q) = ∑ n : Fin 20000, x (ix2 n q) := by
  unfold colsum
  rw [hostReduceAdd_apply, Ideal.hostReduceAdd_single reducesTo_S20000x128_S128_d0 (by decide), constant_apply, ofBits_zero, zero_add]
  refine Finset.sum_congr rfl fun k _ => ?_
  exact congrArg x (funext fun a => Fin.ext (by match a with | ⟨0, _⟩ => rfl | ⟨1, _⟩ => rfl))

theorem node_downcast_apply (y : NodeArr S1x128) (p : Fin 20000) (q : Fin 128) :
    broadcastInDim S20000x128 ![0, 1] bcast_S1x128_S20000x128_0_1 y (ix2 p q) = y (ix2 (0 : Fin 1) q) :=
  broadcastInDim_apply ![0, 1] bcast_S1x128_S20000x128_0_1 y (ix2 p q) (ix2 (0 : Fin 1) q) (fun a => by
    match a with
    | ⟨0, _⟩ => rfl
    | ⟨1, _⟩ => rfl)

theorem node_asrow_apply (b : NodeArr S128) (q : Fin 128) :
    broadcastInDim S1x128 ![1] bcast_S128_S1x128_1 b (ix2 (0 : Fin 1) q) = b (ix1 q) :=
  broadcastInDim_apply ![1] bcast_S128_S1x128_1 b (ix2 (0 : Fin 1) q) (ix1 q) (fun a => by
    match a with
    | ⟨0, _⟩ => rfl)

theorem u_eq (feat MS : NodeArr S20000x128) (U1 : NodeArr S128x128) (bu1 : NodeArr S128) :
    uOf feat MS U1 bu1 = Cert.Spec.G_u feat MS U1 (Cert.Spec.row bu1) := by
  funext i
  obtain ⟨p, q, rfl⟩ : ∃ (p : Fin 20000) (q : Fin 128), i = ix2 p q := ⟨i 0, i 1, eq_ix2 i⟩
  unfold uOf
  rw [maximumf_apply, addf_apply, node_dot_apply, node_rowcast_apply, broadcastInDim_scalar_apply, constant_apply]
  show max ((∑ k : Fin 128, (MS (ix2 p k) + feat (ix2 p k)) * U1 (ix2 k q)) + bu1 (ix1 q)) _
    = max ((∑ k : Fin 128, (feat (ix2 p k) + MS (ix2 p k)) * U1 (ix2 k q)) + bu1 (ix1 q)) _
  simp only [add_comm (MS _) (feat _)]

theorem mean_eq (U : NodeArr S20000x128) : meanOf U = fun i => Cert.Spec.G_mu U (ix2 0 (i 0)) := by
  funext i
  obtain ⟨q, rfl⟩ : ∃ q : Fin 128, i = ix1 q := ⟨i 0, eq_ix1 i⟩
  unfold meanOf
  rw [hostDivf_apply, node_colsum_apply, broadcastInDim_scalar_apply, constant_apply]
  rfl

-- the mean of squared deviations is the mean of squares minus the squared mean, over real entries
theorem var_eq (U : NodeArr S20000x128) (hU : ∀ i, IsReal (U i)) : varOf U = fun i => Cert.Spec.G_var U (ix2 0 (i 0)) := by
  funext i
  obtain ⟨q, rfl⟩ : ∃ q : Fin 128, i = ix1 q := ⟨i 0, eq_ix1 i⟩
  have hv8 : divisor (F := Ideal) ix0 = ((20000 : ℝ) : EReal) := var_divisor
  have hdev : ∀ n : Fin 20000, devOf U (ix2 n q)
      = U (ix2 n q) - Ideal.div (∑ j : Fin 20000, U (ix2 j q)) ((20000 : ℝ) : EReal) := fun n => by
    unfold devOf
    rw [subf_apply, node_downcast_apply, hostDivf_apply, node_asrow_apply, node_colsum_apply, broadcastInDim_scalar_apply, constant_apply,
      ofBits_20000]
  unfold varOf
  rw [select_apply, broadcastInDim_scalar_apply, cmpf_apply, constant_apply]
  show Scalar.select (FloatOps.cmpf (F := Ideal) (φ := .f32) .ogt (Ideal.ofBits .f32 0x469C4000#32 - FloatOps.sitofp (F := Ideal) .f32 (0#32)) (Ideal.ofBits .f32 0x00000000#32)) _ _ = _
  rw [var_guard, scalar_select_one, hostDivf_apply, node_colsum_apply, broadcastInDim_scalar_apply, hv8]
  simp only [mulf_apply, hdev]
  show _ = Ideal.div (∑ n : Fin 20000, U (ix2 n q) * U (ix2 n q)) (Ideal.ofBits .f32 0x469C4000#32)
      - Ideal.div (∑ n : Fin 20000, U (ix2 n q)) (Ideal.ofBits .f32 0x469C4000#32)
        * Ideal.div (∑ n : Fin 20000, U (ix2 n q)) (Ideal.ofBits .f32 0x469C4000#32)
  rw [ofBits_20000]
  exact var_identity (fun n : Fin 20000 => U (ix2 n q)) (fun n => hU _) 20000 (by norm_num) (by simp)

theorem out_eq (U feat : NodeArr S20000x128) (mean var gamma beta : NodeArr S128) (U2 : NodeArr S128x128) (bu2 : NodeArr S128) :
    outOf U feat mean var gamma beta U2 bu2
      = Cert.Spec.G_out U feat (Cert.Spec.row mean) (Cert.Spec.row var) (Cert.Spec.row gamma) (Cert.Spec.row beta) U2
          (Cert.Spec.row bu2) := by
  funext i
  obtain ⟨p, q, rfl⟩ : ∃ (p : Fin 20000) (q : Fin 128), i = ix2 p q := ⟨i 0, i 1, eq_ix2 i⟩
  unfold outOf
  rw [addf_apply, addf_apply, node_dot_apply, node_rowcast_apply]
  show _ = ((∑ k : Fin 128, ((((U (ix2 p k) - mean (ix1 k)) * Ideal.rsqrt (var (ix1 k) + Cert.Spec.epsLit)) * gamma (ix1 k))
      + beta (ix1 k)) * U2 (ix2 k q)) + bu2 (ix1 q)) + feat (ix2 p q)
  refine congrArg (· + feat (ix2 p q)) (congrArg (· + bu2 (ix1 q)) (Finset.sum_congr rfl fun k _ => ?_))
  rw [addf_apply, mulf_apply, mulf_apply, subf_apply, node_rowcast_apply, node_rowcast_apply, node_rowcast_apply, node_rowcast_apply]
  rfl

theorem row_of (g : Cert.Spec.Arr 1 128) : Cert.Spec.row (fun i => g (ix2 0 (i 0))) = g := by
  funext i
  obtain ⟨z, q, rfl⟩ : ∃ (z : Fin 1) (q : Fin 128), i = ix2 z q := ⟨i 0, i 1, eq_ix2 i⟩
  obtain rfl : z = 0 := Subsingleton.elim _ _
  rfl

theorem node_out (feat MS : NodeArr S20000x128) (U1 : NodeArr S128x128) (bu1 gamma beta : NodeArr S128) (U2 : NodeArr S128x128) (bu2 : NodeArr S128)
    (hU : ∀ i, IsReal (Cert.Spec.G_u feat MS U1 (Cert.Spec.row bu1) i)) :
    outOf (uOf feat MS U1 bu1) feat (meanOf (uOf feat MS U1 bu1)) (varOf (uOf feat MS U1 bu1)) gamma beta U2 bu2
      = Cert.Spec.G_out (Cert.Spec.G_u feat MS U1 (Cert.Spec.row bu1)) feat
          (Cert.Spec.G_mu (Cert.Spec.G_u feat MS U1 (Cert.Spec.row bu1)))
          (Cert.Spec.G_var (Cert.Spec.G_u feat MS U1 (Cert.Spec.row bu1)))
          (Cert.Spec.row gamma) (Cert.Spec.row beta) U2 (Cert.Spec.row bu2) := by
  rw [u_eq, mean_eq, var_eq _ hU, out_eq, row_of, row_of]

end Cert.ReferenceIdeal.Hand.Stage
end
-- ==== Proof.RefBridge.lean ====
import proofs.«115762_j58188216926998_1_alg».proof.Proof.RefRun
import proofs.«115762_j58188216926998_1_alg».proof.Proof.Spec
import proofs.«115762_j58188216926998_1_alg».proof.Proof.SpecReal
import proofs.«115762_j58188216926998_1_alg».proof.Proof.LibRealAlgebra
import proofs.«115762_j58188216926998_1_alg».proof.Proof.LibAllReal
import proofs.«115762_j58188216926998_1_alg».proof.Proof.RefStageEdge
import proofs.«115762_j58188216926998_1_alg».proof.Proof.RefStageNode

noncomputable section

namespace Cert.ReferenceIdeal.Hand

open Cert.ReferenceIdeal Cert.ReferenceIdeal.Gen Idealize.ShloMosaic Idealize.ShloMosaic.TcCoe Idealize.SL.Sem
open Cert.Spec Cert.LibRealAlgebra
open Cert.LibAllReal (AllReal)

abbrev TF (S : Shape) : Type := (⟨S, .f32⟩ : BufTy).Contents (Elt Ideal)
abbrev TI (S : Shape) : Type := (⟨S, .i32⟩ : BufTy).Contents (Elt Ideal)

variable (a0 : TF S20000x128) (a1 : TF S320000x128) (a2 a3 : TI S320000) (a4 : TF S384x128) (a5 : TF S128)
  (a6 : TF S128x128) (a7 : TF S128) (a8 : TF S128x1) (a9 : TF S1) (a10 : TF S128x128) (a11 a12 a13 : TF S128)
  (a14 : TF S128x128) (a15 : TF S128)
  (h0 : ∀ i, IsReal (a0 i)) (h1 : ∀ i, IsReal (a1 i)) (h4 : ∀ i, IsReal (a4 i)) (h5 : ∀ i, IsReal (a5 i))
  (h6 : ∀ i, IsReal (a6 i)) (h7 : ∀ i, IsReal (a7 i)) (h8 : ∀ i, IsReal (a8 i)) (h9 : ∀ i, IsReal (a9 i))
  (h10 : ∀ i, IsReal (a10 i)) (h11 : ∀ i, IsReal (a11 i))

def refMG : Arr 320000 128 :=
  G_mg (res_v6 a0 a2) (res_v13 a0 a3) a1 a4 (row a5) a6 (row a7) (colRow a8) (cell a9)

def refMS : Arr 20000 128 :=
  Host.scatterAdd (F := Ideal) scatter_S20000x128_S320000x1_S320000x128_1_0_0_1
    (broadcastInDim S20000x128 ![] bcast_S_S20000x128 (constant S_ .f32 0x00000000#32))
    (broadcastInDim S320000x1 ![0] bcast_S320000_S320000x1_0 a3)
    (refMG a0 a1 a2 a3 a4 a5 a6 a7 a8 a9)

def refU : Arr 20000 128 :=
  G_u a0 (refMS a0 a1 a2 a3 a4 a5 a6 a7 a8 a9) a10 (row a11)

theorem ref_out1 : res_out1 a0 a1 a2 a3 a4 a5 a6 a7 a8 a9 a10 a11 a12 a13 a14 a15
      = G_dnew (res_v6 a0 a2) (res_v13 a0 a3) a1 a4 (row a5) a6 (row a7) := by
  unfold res_out1 res_msg
  exact Stage.edge_dnew (res_v6 a0 a2) (res_v13 a0 a3) a1 a4 a5 a6 a7

theorem res_mg_eq : res_mg a0 a1 a2 a3 a4 a5 a6 a7 a8 a9 = refMG a0 a1 a2 a3 a4 a5 a6 a7 a8 a9 := by
  unfold res_mg res_msg refMG
  exact Stage.edge_mg (res_v6 a0 a2) (res_v13 a0 a3) a1 a4 a5 a6 a7 a8 a9

theorem res_ms_eq : res_ms a0 a1 a2 a3 a4 a5 a6 a7 a8 a9 = refMS a0 a1 a2 a3 a4 a5 a6 a7 a8 a9 := by
  unfold res_ms refMS
  rw [res_mg_eq]

-- a gathered row is a row of the table, so it is real where the table is
include h0 in
theorem res_v6_real (i : TI S320000) : ∀ j, IsReal (res_v6 a0 i j) :=
  AllReal.gather gather_S20000x128_S320000x1_S320000x128_1_0_n_n_0_1_1128 (res_idx (F := Ideal) i) (x := a0) h0

include h0 h1 h4 h5 h6 h7 h8 h9 in
theorem refMG_real : ∀ i, IsReal (refMG a0 a1 a2 a3 a4 a5 a6 a7 a8 a9 i) :=
  G_mg_real (res_v6_real a0 h0 a2) (res_v6_real a0 h0 a3) h1 h4 (row_real h5) h6 (row_real h7) (colRow_real h8)
    (cell_real h9)

-- a scatter-sum from zeros of real updates is real
include h0 h1 h4 h5 h6 h7 h8 h9 in
theorem refMS_real : ∀ i, IsReal (refMS a0 a1 a2 a3 a4 a5 a6 a7 a8 a9 i) := by
  have hz : AllReal (S := S20000x128)
      (broadcastInDim S20000x128 ![] bcast_S_S20000x128 (constant (F := Ideal) S_ .f32 0x00000000#32)) :=
    AllReal.broadcastInDim _ _ (AllReal.constant_zero S_)
  have hu : AllReal (S := S320000x128) (refMG a0 a1 a2 a3 a4 a5 a6 a7 a8 a9) :=
    refMG_real a0 a1 a2 a3 a4 a5 a6 a7 a8 a9 h0 h1 h4 h5 h6 h7 h8 h9
  have h := AllReal.scatterAdd (φ := .f32) scatter_S20000x128_S320000x1_S320000x128_1_0_0_1
    (broadcastInDim S320000x1 ![0] bcast_S320000_S320000x1_0 a3) hz hu
  intro i
  unfold refMS
  exact h i

include h0 h1 h4 h5 h6 h7 h8 h9 h10 h11 in
theorem refU_real : ∀ i, IsReal (refU a0 a1 a2 a3 a4 a5 a6 a7 a8 a9 a10 a11 i) :=
  G_u_real h0 (refMS_real a0 a1 a2 a3 a4 a5 a6 a7 a8 a9 h0 h1 h4 h5 h6 h7 h8 h9) h10 (row_real h11)

include h0 h1 h4 h5 h6 h7 h8 h9 h10 h11 in
theorem ref_out0 : res_out0 a0 a1 a2 a3 a4 a5 a6 a7 a8 a9 a10 a11 a12 a13 a14 a15
      = G_out (refU a0 a1 a2 a3 a4 a5 a6 a7 a8 a9 a10 a11) a0 (G_mu (refU a0 a1 a2 a3 a4 a5 a6 a7 a8 a9 a10 a11))
          (G_var (refU a0 a1 a2 a3 a4 a5 a6 a7 a8 a9 a10 a11)) (row a12) (row a13) a14 (row a15) := by
  unfold res_out0 res_u
  rw [res_ms_eq]
  unfold refU
  exact Stage.node_out a0 (refMS a0 a1 a2 a3 a4 a5 a6 a7 a8 a9) a10 a11 a12 a13 a14 a15
    (refU_real a0 a1 a2 a3 a4 a5 a6 a7 a8 a9 a10 a11 h0 h1 h4 h5 h6 h7 h8 h9 h10 h11)

end Cert.ReferenceIdeal.Hand

end
-- ==== Proof.PreReal.lean ====
import proofs.«115762_j58188216926998_1_alg».proof.Pre_finite_inputs
import proofs.«115762_j58188216926998_1_alg».proof.Proof.LibAllReal
import Idealize.ShloMosaic.Lib.ReduceAll
import Idealize.ShloMosaic.Lib.ValueIdx

namespace Cert.PreReal

open Idealize.ShloMosaic Cert.Pre_finite_inputs Cert.LibAllReal

set_option maxRecDepth 16384 in
theorem allReal_of_pre [Cert.Pre_finite_inputs.Facts]
    (a0 : FVec Ideal S20000x128 .f32) (a1 : FVec Ideal S320000x128 .f32) (a2 a3 : IVec S320000 32)
    (a4 : FVec Ideal S384x128 .f32) (a5 : FVec Ideal S128 .f32) (a6 : FVec Ideal S128x128 .f32)
    (a7 : FVec Ideal S128 .f32) (a8 : FVec Ideal S128x1 .f32) (a9 : FVec Ideal S1 .f32)
    (a10 : FVec Ideal S128x128 .f32) (a11 a12 a13 : FVec Ideal S128 .f32)
    (a14 : FVec Ideal S128x128 .f32) (a15 : FVec Ideal S128 .f32)
    (h : Cert.Pre_finite_inputs.fn (F := Ideal) a0 a1 a2 a3 a4 a5 a6 a7 a8 a9 a10 a11 a12 a13 a14 a15 = (fun _ => 1#1)) :
    AllReal a0 ∧ AllReal a1 ∧ AllReal a4 ∧ AllReal a5 ∧ AllReal a6 ∧ AllReal a7 ∧ AllReal a8 ∧ AllReal a9 ∧
      AllReal a10 ∧ AllReal a11 ∧ AllReal a12 ∧ AllReal a13 ∧ AllReal a14 ∧ AllReal a15 := by
  haveI : Subsingleton S_.Idx := ⟨fun a b => funext fun d => d.elim0⟩
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨⟨⟨⟨⟨⟨e0, e1⟩, e4⟩, e5⟩, e6⟩, e7⟩, e8⟩, e9⟩, e10⟩, e11⟩, e12⟩, e13⟩, e14⟩, e15⟩ := h0
  exact ⟨allReal_of_all_abs_lt_inf a0 _ _ _ _ _ _ e0, allReal_of_all_abs_lt_inf a1 _ _ _ _ _ _ e1,
    allReal_of_all_abs_lt_inf a4 _ _ _ _ _ _ e4, allReal_of_all_abs_lt_inf a5 _ _ _ _ _ _ e5,
    allReal_of_all_abs_lt_inf a6 _ _ _ _ _ _ e6, allReal_of_all_abs_lt_inf a7 _ _ _ _ _ _ e7,
    allReal_of_all_abs_lt_inf a8 _ _ _ _ _ _ e8, allReal_of_all_abs_lt_inf a9 _ _ _ _ _ _ e9,
    allReal_of_all_abs_lt_inf a10 _ _ _ _ _ _ e10, allReal_of_all_abs_lt_inf a11 _ _ _ _ _ _ e11,
    allReal_of_all_abs_lt_inf a12 _ _ _ _ _ _ e12, allReal_of_all_abs_lt_inf a13 _ _ _ _ _ _ e13,
    allReal_of_all_abs_lt_inf a14 _ _ _ _ _ _ e14, allReal_of_all_abs_lt_inf a15 _ _ _ _ _ _ e15⟩

end Cert.PreReal
-- ==== Proof.Algebraic.lean ====
import proofs.«115762_j58188216926998_1_alg».proof.Defs
import proofs.«115762_j58188216926998_1_alg».proof.Proof.Gen.Kernel
import proofs.«115762_j58188216926998_1_alg».proof.Proof.Gen.KernelIdeal
import proofs.«115762_j58188216926998_1_alg».proof.Proof.Gen.ReferenceIdeal
import proofs.«115762_j58188216926998_1_alg».proof.Proof.Gen.Pre_finite_inputs
import proofs.«115762_j58188216926998_1_alg».proof.Proof.KRun
import proofs.«115762_j58188216926998_1_alg».proof.Proof.KIRun
import proofs.«115762_j58188216926998_1_alg».proof.Proof.ValKernel
import proofs.«115762_j58188216926998_1_alg».proof.Proof.RefRun
import proofs.«115762_j58188216926998_1_alg».proof.Proof.RefBridge
import proofs.«115762_j58188216926998_1_alg».proof.Proof.PreReal

set_option maxRecDepth 16384

noncomputable section

namespace Cert.Proof.Parts

open Idealize.ShloMosaic Idealize.ShloMosaic.TcCoe Idealize.SL.Sem
open Cert.KernelIdeal.Val (TF TI kFS kMG kMS kU kOut0 kOut1)
open Cert.ReferenceIdeal.Hand (refMG refMS refU)
open Cert.LibAllReal (AllReal)

-- no operation of the program writes an argument array, so each ends as it began
open Cert.Kernel in
theorem frame_k : Cert.frame_Kernel := fun m ρ _ =>
  (θ_run _ _ _).mono (fun _ h c =>
    have k := fun (r : Ref sig .tc) hr hk => Hand.kept m ρ c r hr hk (h c)
    ⟨k main_arg0 (by decide) (by decide), k main_arg1 (by decide) (by decide), k main_arg2 (by decide) (by decide), k main_arg3 (by decide) (by decide),
      k main_arg4 (by decide) (by decide), k main_arg5 (by decide) (by decide), k main_arg6 (by decide) (by decide), k main_arg7 (by decide) (by decide),
      k main_arg8 (by decide) (by decide), k main_arg9 (by decide) (by decide), k main_arg10 (by decide) (by decide), k main_arg11 (by decide) (by decide),
      k main_arg12 (by decide) (by decide), k main_arg13 (by decide) (by decide), k main_arg14 (by decide) (by decide), k main_arg15 (by decide) (by decide)⟩)
    (Hand.run_main (F := Bits) m ρ)

open Cert.KernelIdeal in
theorem frame_ki : Cert.frame_KernelIdeal := fun m ρ _ =>
  (θ_run _ _ _).mono (fun _ h c =>
    have k := fun (r : Ref sig .tc) hr hk => Hand.kept m ρ c r hr hk (h c)
    ⟨k main_arg0 (by decide) (by decide), k main_arg1 (by decide) (by decide), k main_arg2 (by decide) (by decide), k main_arg3 (by decide) (by decide),
      k main_arg4 (by decide) (by decide), k main_arg5 (by decide) (by decide), k main_arg6 (by decide) (by decide), k main_arg7 (by decide) (by decide),
      k main_arg8 (by decide) (by decide), k main_arg9 (by decide) (by decide), k main_arg10 (by decide) (by decide), k main_arg11 (by decide) (by decide),
      k main_arg12 (by decide) (by decide), k main_arg13 (by decide) (by decide), k main_arg14 (by decide) (by decide), k main_arg15 (by decide) (by decide)⟩)
    (Hand.run_main (F := Ideal) m ρ)

theorem frame_ri : Cert.frame_ReferenceIdeal := fun m ρ _ =>
  (θ_run Cert.ReferenceIdeal.defs _ _).mono (fun _ h c => (h c).2.2) (Cert.ReferenceIdeal.Hand.run (F := Ideal) m ρ)

theorem preserves : Cert.preserves_Kernel_KernelIdeal := trivial

section Bridge
open Cert.KernelIdeal
variable (a0 : TF S20000x128) (a1 : TF S320000x128) (a2 a3 : TI S320000) (a4 : TF S384x128) (a5 : TF S128) (a6 : TF S128x128)
    (a7 : TF S128) (a8 : TF S128x1) (a9 : TF S1) (a10 : TF S128x128) (a11 a12 a13 : TF S128) (a14 : TF S128x128) (a15 : TF S128)

theorem fs_eq : Cert.ReferenceIdeal.Hand.res_v6 (F := Ideal) a0 a2 = kFS a0 a2 := rfl

theorem fd_eq : Cert.ReferenceIdeal.Hand.res_v13 (F := Ideal) a0 a3 = kFS a0 a3 := rfl

theorem mg_eq : refMG a0 a1 a2 a3 a4 a5 a6 a7 a8 a9 = kMG a0 a1 a2 a3 a4 a5 a6 a7 a8 a9 := by
  unfold refMG kMG; rw [fs_eq, fd_eq]

theorem ms_eq : refMS a0 a1 a2 a3 a4 a5 a6 a7 a8 a9 = kMS a0 a1 a2 a3 a4 a5 a6 a7 a8 a9 := by
  unfold refMS kMS; rw [mg_eq]; rfl

theorem u_eq : refU a0 a1 a2 a3 a4 a5 a6 a7 a8 a9 a10 a11 = kU a0 a1 a2 a3 a4 a5 a6 a7 a8 a9 a10 a11 := by
  unfold refU kU; rw [ms_eq]

theorem out1_eq : Cert.ReferenceIdeal.Hand.res_out1 (F := Ideal) a0 a1 a2 a3 a4 a5 a6 a7 a8 a9 a10 a11 a12 a13 a14 a15 = kOut1 a0 a1 a2 a3 a4 a5 a6 a7 := by
  rw [Cert.ReferenceIdeal.Hand.ref_out1 a0 a1 a2 a3 a4 a5 a6 a7 a8 a9 a10 a11 a12 a13 a14 a15, fs_eq, fd_eq]; rfl

theorem out0_eq (h0 : AllReal a0) (h1 : AllReal a1) (h4 : AllReal a4) (h5 : AllReal a5) (h6 : AllReal a6) (h7 : AllReal a7) (h8 : AllReal a8) (h9 : AllReal a9) (h10 : AllReal a10) (h11 : AllReal a11) :
    Cert.ReferenceIdeal.Hand.res_out0 (F := Ideal) a0 a1 a2 a3 a4 a5 a6 a7 a8 a9 a10 a11 a12 a13 a14 a15 = kOut0 a0 a1 a2 a3 a4 a5 a6 a7 a8 a9 a10 a11 a12 a13 a14 a15 := by
  rw [Cert.ReferenceIdeal.Hand.ref_out0 a0 a1 a2 a3 a4 a5 a6 a7 a8 a9 a10 a11 a12 a13 a14 a15 h0 h1 h4 h5 h6 h7 h8 h9 h10 h11, u_eq]; rfl

end Bridge

open Cert.KernelIdeal in
theorem algebraic : Cert.algebraic_KernelIdeal_ReferenceIdeal := by
  intro m ρ m' ρ' hpre hagree
  refine ⟨fun c => kOut0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)),
    fun c => kOut1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), ?_, ?_⟩
  · exact (θ_run defs _ _).mono (fun _ h c =>
      have k := fun (r : Ref sig .tc) hr hk => Hand.kept m ρ c r hr hk (h c)
      ⟨(h c _ (Hand.mem_uc main_v27 (by decide))).trans (Val.W5_v27 m ρ c),
        (h c _ (Hand.mem_uc main_v22_0 (by decide))).trans (Val.W5_v22_0 m ρ c),
        k main_arg0 (by decide) (by decide), k main_arg1 (by decide) (by decide), k main_arg2 (by decide) (by decide), k main_arg3 (by decide) (by decide),
        k main_arg4 (by decide) (by decide), k main_arg5 (by decide) (by decide), k main_arg6 (by decide) (by decide), k main_arg7 (by decide) (by decide),
        k main_arg8 (by decide) (by decide), k main_arg9 (by decide) (by decide), k main_arg10 (by decide) (by decide), k main_arg11 (by decide) (by decide),
        k main_arg12 (by decide) (by decide), k main_arg13 (by decide) (by decide), k main_arg14 (by decide) (by decide), k main_arg15 (by decide) (by decide)⟩)
      (Hand.run_main (F := Ideal) m ρ)
  · refine (θ_run Cert.ReferenceIdeal.defs _ _).mono (fun _ h c => ⟨(h c).1.trans ?_, (h c).2.1.trans ?_, (h c).2.2⟩)
      (Cert.ReferenceIdeal.Hand.run (F := Ideal) m' ρ')
    · obtain ⟨e0, e1, e2, e3, e4, e5, e6, e7, e8, e9, e10, e11, e12, e13, e14, e15⟩ := hagree c
      obtain ⟨r0, r1, r4, r5, r6, r7, r8, r9, r10, r11, r12, r13, r14, r15⟩ :=
        Cert.PreReal.allReal_of_pre _ _ _ _ _ _ _ _ _ _ _ _ _ _ _ _ (hpre c)
      rw [e0, e1, e2, e3, e4, e5, e6, e7, e8, e9, e10, e11, e12, e13, e14, e15]
      exact out0_eq _ _ _ _ _ _ _ _ _ _ _ _ _ _ _ _ r0 r1 r4 r5 r6 r7 r8 r9 r10 r11
    · obtain ⟨e0, e1, e2, e3, e4, e5, e6, e7, e8, e9, e10, e11, e12, e13, e14, e15⟩ := hagree c
      rw [e0, e1, e2, e3, e4, e5, e6, e7, e8, e9, e10, e11, e12, e13, e14, e15]
      exact out1_eq _ _ _ _ _ _ _ _ _ _ _ _ _ _ _ _

end Cert.Proof.Parts

end
-- ==== Proof.lean ====
import proofs.«115762_j58188216926998_1_alg».proof.Defs
import proofs.«115762_j58188216926998_1_alg».proof.Proof.Gen.Kernel
import proofs.«115762_j58188216926998_1_alg».proof.Proof.Gen.KernelIdeal
import proofs.«115762_j58188216926998_1_alg».proof.Proof.Gen.ReferenceIdeal
import proofs.«115762_j58188216926998_1_alg».proof.Proof.Gen.Pre_finite_inputs
import proofs.«115762_j58188216926998_1_alg».proof.Proof.Algebraic
import Idealize.ShloMosaic.Adequacy
import Idealize.ShloMosaic.Init

noncomputable section

namespace Cert.Proof

open Idealize.ShloMosaic Idealize.SL.Sem

-- the three programs run to the end leaving their arguments as they were, and over real inputs the kernel program and the reference compute one function
theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, Parts.preserves, Parts.algebraic⟩

end Cert.Proof

end
